-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_arg13 : FVec F S64x5 .f32) (main_arg14 : FVec F S5 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x5 .f32 := Host.absf main_arg13
  let main_cst_20 : FVec F S_ .f32 := constant S_ .f32 0x7F800000#32
  let main_v55 : FVec F S64x5 .f32 := broadcastInDim S64x5 ![] bcast_S_S64x5 main_cst_20
  let main_v56 : IVec S64x5 1 := cmpf .olt main_v54 main_v55
  let main_c_21 : IVec S_ 1 := constantI S_ 1 1#1
  let main_v57 : IVec S_ 1 := (fun x v => Host.reduce IntOp.andi x v reducesTo_S64x5_S_d0_1 h_S_) main_v56 main_c_21
  let main_v58 : IVec S_ 1 := andi main_v53 main_v57
  let main_v59 : FVec F S5 .f32 := Host.absf main_arg14
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x64 .f32) (main_arg12 : FVec F S64 .f32) (main_arg13 : FVec F S64x5 .f32) (main_arg14 : FVec F S5 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x5 .f32) (main_arg14 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x5 .f32) (main_arg14 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S102400x64 : Shape := ⟨2, ![102400, 64]⟩
abbrev S1x100000 : Shape := ⟨2, ![1, 100000]⟩
abbrev S1x102400 : Shape := ⟨2, ![1, 102400]⟩
abbrev S1x5 : Shape := ⟨2, ![1, 5]⟩
abbrev S128x5 : Shape := ⟨2, ![128, 5]⟩
abbrev S6400x64 : Shape := ⟨2, ![6400, 64]⟩
abbrev S1x6400 : Shape := ⟨2, ![1, 6400]⟩
abbrev S128x6400 : Shape := ⟨2, ![128, 6400]⟩

abbrev nBuf : Space → Nat
  | .hbm => 64
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x5, .f32⟩
  | .hbm, ⟨14, _⟩ => ⟨S5, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .i32⟩
  | .hbm, ⟨50, _⟩ => ⟨S_, .f32⟩
  | .hbm, ⟨51, _⟩ => ⟨S102400x64, .f32⟩
  | .hbm, ⟨52, _⟩ => ⟨S_, .i32⟩
  | .hbm, ⟨53, _⟩ => ⟨S_, .f32⟩
  | .hbm, ⟨54, _⟩ => ⟨S102400x64, .f32⟩
  | .hbm, ⟨55, _⟩ => ⟨S1x100000, .i32⟩
  | .hbm, ⟨56, _⟩ => ⟨S_, .i32⟩
  | .hbm, ⟨57, _⟩ => ⟨S_, .i32⟩
  | .hbm, ⟨58, _⟩ => ⟨S1x102400, .i32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x5, .f32⟩
  | .hbm, ⟨63, _⟩ => ⟨S128x5, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S6400x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S1x6400, .i32⟩
  | .local _ .vmem, ⟨23, _⟩ => ⟨S1x6400, .i32⟩
  | .local _ .vmem, ⟨24, _⟩ => ⟨S64x64, .f32⟩
  | .local _ .vmem, ⟨25, _⟩ => ⟨S1x64, .f32⟩
  | .local _ .vmem, ⟨26, _⟩ => ⟨S64x5, .f32⟩
  | .local _ .vmem, ⟨27, _⟩ => ⟨S1x5, .f32⟩
  | .local _ .vmem, ⟨28, _⟩ => ⟨S128x5, .f32⟩
  | .local _ .vmem, ⟨29, _⟩ => ⟨S128x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_call0_v0 : Ref sig .tc := ⟨.hbm, 50, rfl⟩
abbrev main_v28 : Ref sig .tc := ⟨.hbm, 51, rfl⟩
abbrev main_c_5 : Ref sig .tc := ⟨.hbm, 52, rfl⟩
abbrev main_call1_v0 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_call2_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_22 : BitVec 32 := 0#32
  let v39 : BitVec 1 := Scalar.cmpi .ne v38 c0_i32_22
  v39

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x6400 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x5 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x5 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x5 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  pads_S100000x64_S102400x64_024000_000 : S100000x64.Pads (![0, 0] : Fin 2 → Nat) ![2400, 0] ![0, 0] S102400x64
  h_S_ : 0 < S_.numel
  shapeCasts_S100000_S1x100000 : S100000.ShapeCasts S1x100000
  pads_S1x100000_S1x102400_000_024000 : S1x100000.Pads (![0, 0] : Fin 2 → Nat) ![0, 2400] ![0, 0] S1x102400
  shapeCasts_S5_S1x5 : S5.ShapeCasts S1x5
  shapeCasts_S128x64_S128x64 : S128x64.ShapeCasts S128x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  broadcasts_S1x64_S6400x64 : S1x64.Broadcasts S6400x64
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  iota_S128x6400_d0_w32 : S128x6400.Iotas .tc 32 [0]
  broadcasts_S1x6400_S128x6400 : S1x6400.Broadcasts S128x6400
  natLt_1_32 : 1 < 32
  broadcasts_S1x64_S128x64 : S1x64.Broadcasts S128x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S128x5 : S1x5.Broadcasts S128x5
  inb_S128x5_S128x5_0_0 : ∀ a, (![0, 0] : Fin 2 → Nat) a + S128x5.size a ≤ S128x5.size a
  h_S128x5 : 0 < S128x5.numel
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S6400x64_S64x64_S6400x64_1_0_0_1_n_n_wf : DotDims.WF S6400x64 S64x64 S6400x64 [1] [0] [0] [1] [] []
  dot_S128x6400_S6400x64_S128x64_1_0_0_1_n_n_wf : DotDims.WF S128x6400 S6400x64 S128x64 [1] [0] [0] [1] [] []
  dot_S128x64_S64x64_S128x64_1_0_0_1_n_n_wf : DotDims.WF S128x64 S64x64 S128x64 [1] [0] [0] [1] [] []
  dot_S128x64_S64x5_S128x5_1_0_0_1_n_n_wf : DotDims.WF S128x64 S64x5 S128x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S102400x64.size a
  hwx2_0 : ∀ i : grid2.Coords, EltTy.bits .f32 = 32 ∨ (Rect.block (s := S102400x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S102400x64.size a
  hwx2_1 : ∀ i : grid2.Coords, EltTy.bits .f32 = 32 ∨ (Rect.block (s := S102400x64) S6400x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x6400.size a ≤ S1x102400.size a
  hwx2_6 : ∀ i : grid2.Coords, EltTy.bits .i32 = 32 ∨ (Rect.block (s := S1x102400) S1x6400.size (cc2_transform_6 i) (hinb2_6 i)).WholeWords (EltTy.packing .i32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x5.size a ≤ S64x5.size a
  hwx2_9 : ∀ i : grid2.Coords, EltTy.bits .f32 = 32 ∨ (Rect.block (s := S64x5) S64x5.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x5.size a ≤ S1x5.size a
  hwx2_10 : ∀ i : grid2.Coords, EltTy.bits .f32 = 32 ∨ (Rect.block (s := S1x5) S1x5.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x5.size a ≤ S128x5.size a
  hwx2_11 : ∀ i : grid2.Coords, EltTy.bits .f32 = 32 ∨ (Rect.block (s := S128x5) S128x5.size (cc2_transform_11 i) (hinb2_11 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S128x6400_S6400x64_S128x64_1_0_0_1_n_n : DotDims S128x6400 S6400x64 S128x64 where
  lhsContracting := [1]
  rhsContracting := [0]
  lhsNonContracting := [0]
  rhsNonContracting := [1]
  lhsBatch := []
  rhsBatch := []
  wf := dot_S128x6400_S6400x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x5_S128x5_1_0_0_1_n_n : DotDims S128x64 S64x5 S128x5 where
  lhsContracting := [1]
  rhsContracting := [0]
  lhsNonContracting := [0]
  rhsNonContracting := [1]
  lhsBatch := []
  rhsBatch := []
  wf := dot_S128x64_S64x5_S128x5_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S1x6400.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v34) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg13) S64x5.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v35) S1x5.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v36) S128x5.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | ⟨_ + 12, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩
abbrev S128x5 : Shape := ⟨2, ![128, 5]⟩
abbrev S1x5 : Shape := ⟨2, ![1, 5]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x5, .f32⟩
  | .hbm, ⟨14, _⟩ => ⟨S5, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S128x64, .f32⟩
  | .hbm, ⟨77, _⟩ => ⟨S100000x1, .i32⟩
  | .hbm, ⟨78, _⟩ => ⟨S128x64, .f32⟩
  | .hbm, ⟨79, _⟩ => ⟨S128x64, .f32⟩
  | .hbm, ⟨80, _⟩ => ⟨S1x64, .f32⟩
  | .hbm, ⟨81, _⟩ => ⟨S128x64, .f32⟩
  | .hbm, ⟨82, _⟩ => ⟨S128x64, .f32⟩
  | .hbm, ⟨83, _⟩ => ⟨S_, .f32⟩
  | .hbm, ⟨84, _⟩ => ⟨S128x64, .f32⟩
  | .hbm, ⟨85, _⟩ => ⟨S128x64, .f32⟩
  | .hbm, ⟨86, _⟩ => ⟨S128x5, .f32⟩
  | .hbm, ⟨87, _⟩ => ⟨S1x5, .f32⟩
  | .hbm, ⟨88, _⟩ => ⟨S128x5, .f32⟩
  | .hbm, ⟨89, _⟩ => ⟨S128x5, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_cst : Ref sig .tc := ⟨.hbm, 72, rfl⟩
abbrev main_call3_v0 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call4_cst : Ref sig .tc := ⟨.hbm, 83, rfl⟩
abbrev main_call4_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  bcast_S5_S1x5_1 : S5.BroadcastsInDim S1x5 (![1] : Fin 1 → Fin S1x5.rank)
  bcast_S1x5_S128x5_0_1 : S1x5.BroadcastsInDim S128x5 (![0, 1] : Fin 2 → Fin S128x5.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x5_S128x5_1_0_0_1_n_n_wf : DotDims.WF S128x64 S64x5 S128x5 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x5_S128x5_1_0_0_1_n_n : DotDims S128x64 S64x5 S128x5 where
  lhsContracting := [1]
  rhsContracting := [0]
  lhsNonContracting := [0]
  rhsNonContracting := [1]
  lhsBatch := []
  rhsBatch := []
  wf := dot_S128x64_S64x5_S128x5_1_0_0_1_n_n_wf

class Facts : Prop extends Facts₀ where

variable [Facts]
-- ==== Proof.R0.lean ====
import proofs.«430244_j76613626626159_3_alg».proof.Proof.Gen.KernelIdeal.Launch
import proofs.«430244_j76613626626159_3_alg».proof.Proof.Gen.KernelIdeal.Skeleton
import proofs.«430244_j76613626626159_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S10000x128 := Rect.unit (s := S10000x128) ![0, 0] S10000x128.size inb_S10000x128_S10000x128_0_0
abbrev rw0 : Rect S128x64 := Rect.unit (s := S128x64) ![0, 0] S128x64.size inb_S128x64_S128x64_0_0
abbrev ro0 : Rect S10000x64 := Rect.unit (s := S10000x64) ![0, 0] S10000x64.size inb_S10000x64_S10000x64_0_0

def out0_2 (x0 : Vec F S10000x128 .f32) (x1 : Vec F S128x64 .f32) : Vec F S10000x64 .f32 :=
  View.canon [⟨ro0, k0_pay1 (View.ld x0 rx0) (View.ld x1 rw0)⟩]

theorem cover0_2 (p0 : Vec F S10000x64 .f32) (y : S10000x64.Idx) :
    ∃ pc ∈ ([⟨ro0, p0⟩] : List (View.Piece (Elt F) S10000x64 .f32)), y ∈ pc.1.set :=
  View.cover_of_tiled [⟨ro0, p0⟩] S10000x64.size (by rfl) y

set_option maxHeartbeats 1000000 in

theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.R1.lean ====
import proofs.«430244_j76613626626159_3_alg».proof.Proof.Gen.KernelIdeal.Launch
import proofs.«430244_j76613626626159_3_alg».proof.Proof.Gen.KernelIdeal.Skeleton
import proofs.«430244_j76613626626159_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rb1 : Rect S10000x64 := Rect.unit (s := S10000x64) ![0, 0] S10000x64.size inb_S10000x64_S10000x64_0_0
abbrev rr1 : Rect S1x64 := Rect.unit (s := S1x64) ![0, 0] S1x64.size inb_S1x64_S1x64_0_0
abbrev rw1 : Rect S64x64 := Rect.unit (s := S64x64) ![0, 0] S64x64.size inb_S64x64_S64x64_0_0

def out1_5 (x0 x1 : Vec F S10000x64 .f32) (x2 : Vec F S1x64 .f32) (x3 : Vec F S64x64 .f32) (x4 : Vec F S1x64 .f32) : Vec F S10000x64 .f32 :=
  View.canon [⟨rb1, k1_pay1 (View.ld x0 rb1) (View.ld x1 rb1) (View.ld x2 rr1) (View.ld x3 rw1) (View.ld x4 rr1)⟩]

theorem cover1_5 (p0 : Vec F S10000x64 .f32) (y : S10000x64.Idx) :
    ∃ pc ∈ ([⟨rb1, p0⟩] : List (View.Piece (Elt F) S10000x64 .f32)), y ∈ pc.1.set :=
  View.cover_of_tiled [⟨rb1, p0⟩] S10000x64.size (by rfl) y

set_option maxHeartbeats 1000000 in

theorem sound_kernel1 (c : Dev nD) (E : Set ℕ) (i : grid1.Coords) (arg1 : Memref sig .tc .vmem S10000x64 .f32) (harg1 : arg1.IsWhole)
    (arg2 : Memref sig .tc .vmem S10000x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S10000x64 .f32) (harg6 : arg6.IsWhole)
    (x0 x1 : Vec F S10000x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gin_post_proj_kernel i arg1 harg1 arg2 harg2 arg3 harg3 arg4 harg4 arg5 harg5 arg6 harg6) K := by
  simp only [cc1__gin_post_proj_kernel_eq_skeleton]; unfold cc1__gin_post_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.R2Runs.lean ====
import proofs.«430244_j76613626626159_3_alg».proof.Proof.Gen.KernelIdeal.Launch
import proofs.«430244_j76613626626159_3_alg».proof.Proof.Gen.KernelIdeal.Skeleton
import proofs.«430244_j76613626626159_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1

theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel

theorem idleAt2_11_A : ∀ t : Fin cfg2.N, cond2_0 (grid2.coords t) → ¬cond2_1 (grid2.coords t) → cfg2.idle 11 (grid2.coords t) = true := by decide +kernel
theorem noFlush2_11_A : ∀ t : Fin cfg2.N, cond2_0 (grid2.coords t) → ¬cond2_1 (grid2.coords t) → (cfg2.win 11).flush t = false := by decide +kernel

theorem idleAt2_11_B : ∀ t : Fin cfg2.N, ¬cond2_0 (grid2.coords t) → ¬cond2_1 (grid2.coords t) → cfg2.idle 11 (grid2.coords t) = true := by decide +kernel
theorem noFlush2_11_B : ∀ t : Fin cfg2.N, ¬cond2_0 (grid2.coords t) → ¬cond2_1 (grid2.coords t) → (cfg2.win 11).flush t = false := by decide +kernel

theorem liveAt2_11_C : ∀ t : Fin cfg2.N, ¬cond2_0 (grid2.coords t) → cond2_1 (grid2.coords t) → cfg2.idle 11 (grid2.coords t) = false := by decide +kernel

abbrev ms2_0 (t : Fin cfg2.N) : Memref sig .tc .vmem S6400x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6400x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x6400 .i32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S64x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S64x5 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x5 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S128x5 .f32 := win2_11.stage (cfg2.slots t 11)
abbrev hs2_11 (t : Fin cfg2.N) : (ms2_11 t).IsWhole := hstage2_11 ((cfg2.slots t 11).cast nbuf2_11)

abbrev scM2_0 : Memref sig .tc .vmem S128x64 .f32 := Memref.whole cc2_scratch0

abbrev VS2_0 : View sig .tc .vmem S128x64 .f32 := scM2_0.view
abbrev VO2_11 : View sig .tc .vmem S128x5 .f32 := (Memref.whole cc2_stg11_0 : Memref sig .tc .vmem S128x5 .f32).view

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_split]; simp only [scM2_0, owns_whole]; try rfl

set_option maxHeartbeats 4000000 in

noncomputable def kernelRun2_A (c : Dev nD) (i : grid2.Coords) (arg1 : Memref sig .tc .vmem S6400x64 .f32) (harg1 : arg1.IsWhole) (arg2 : Memref sig .tc .vmem S6400x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x6400 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x5 .f32) (harg10 : arg10.IsWhole) (arg11 : Memref sig .tc .vmem S1x5 .f32) (harg11 : arg11.IsWhole) (arg12 : Memref sig .tc .vmem S128x5 .f32) (harg12 : arg12.IsWhole) (arg13 : Memref sig .tc .vmem S128x64 .f32) (harg13 : arg13.IsWhole) (hc0 : cond2_0 i) (hc1 : ¬cond2_1 i)
    (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) :
    Σ' (L11 : List (View.Piece (Elt F) S128x5 .f32)), { LS0 : List (View.Piece (Elt F) S128x64 .f32) //
      ∀ (xi11 : Vec F S128x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f LS0)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, fun xi11 E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact HS0

set_option maxHeartbeats 4000000 in

noncomputable def kernelRun2_B (c : Dev nD) (i : grid2.Coords) (arg1 : Memref sig .tc .vmem S6400x64 .f32) (harg1 : arg1.IsWhole) (arg2 : Memref sig .tc .vmem S6400x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x6400 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x5 .f32) (harg10 : arg10.IsWhole) (arg11 : Memref sig .tc .vmem S1x5 .f32) (harg11 : arg11.IsWhole) (arg12 : Memref sig .tc .vmem S128x5 .f32) (harg12 : arg12.IsWhole) (arg13 : Memref sig .tc .vmem S128x64 .f32) (harg13 : arg13.IsWhole) (hc0 : ¬cond2_0 i) (hc1 : ¬cond2_1 i)
    (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) (xs0 : Vec F S128x64 .f32) :
    Σ' (L11 : List (View.Piece (Elt F) S128x5 .f32)), { LS0 : List (View.Piece (Elt F) S128x64 .f32) //
      ∀ (xi11 : Vec F S128x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f LS0)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, fun xi11 E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact HS0

set_option maxHeartbeats 4000000 in

noncomputable def kernelRun2_C (c : Dev nD) (i : grid2.Coords) (arg1 : Memref sig .tc .vmem S6400x64 .f32) (harg1 : arg1.IsWhole) (arg2 : Memref sig .tc .vmem S6400x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x6400 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x5 .f32) (harg10 : arg10.IsWhole) (arg11 : Memref sig .tc .vmem S1x5 .f32) (harg11 : arg11.IsWhole) (arg12 : Memref sig .tc .vmem S128x5 .f32) (harg12 : arg12.IsWhole) (arg13 : Memref sig .tc .vmem S128x64 .f32) (harg13 : arg13.IsWhole) (hc0 : ¬cond2_0 i) (hc1 : cond2_1 i)
    (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) (xs0 : Vec F S128x64 .f32) :
    Σ' (L11 : List (View.Piece (Elt F) S128x5 .f32)), { LS0 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.KernelIdeal.Gen

end
-- ==== Proof.R2.lean ====
import proofs.«430244_j76613626626159_3_alg».proof.Proof.R2Runs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg1 : Memref sig .tc .vmem S6400x64 .f32) (harg1 : arg1.IsWhole) (arg2 : Memref sig .tc .vmem S6400x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x6400 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x5 .f32) (harg10 : arg10.IsWhole) (arg11 : Memref sig .tc .vmem S1x5 .f32) (harg11 : arg11.IsWhole) (arg12 : Memref sig .tc .vmem S128x5 .f32) (harg12 : arg12.IsWhole) (arg13 : Memref sig .tc .vmem S128x64 .f32) (harg13 : arg13.IsWhole)

section
variable (hc0 : cond2_0 i) (hc1 : ¬cond2_1 i)
  (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32)

def out2_A_11 : Vec F S128x5 .f32 :=
  VO2_11.read (Elt F) (VO2_11.writes (Elt F) VO2_11.junk (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1)

theorem scover2_A_0 (y : S128x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).2.1, y ∈ pc.1.set :=
  View.cover_of_tiledL _ S128x64.size (by sl_kernel_rfl) y

def sout2_A_0 : Vec F S128x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).2.1)

end

section
variable (hc0 : ¬cond2_0 i) (hc1 : ¬cond2_1 i)
  (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) (xs0 : Vec F S128x64 .f32)

def out2_B_11 : Vec F S128x5 .f32 :=
  VO2_11.read (Elt F) (VO2_11.writes (Elt F) VO2_11.junk (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).1)

theorem scover2_B_0 (y : S128x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).2.1, y ∈ pc.1.set :=
  View.cover_of_tiledL _ S128x64.size (by sl_kernel_rfl) y

def sout2_B_0 : Vec F S128x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).2.1)

end

section
variable (hc0 : ¬cond2_0 i) (hc1 : cond2_1 i)
  (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) (xs0 : Vec F S128x64 .f32)

theorem cover2_C_11 (y : S128x5.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).1, y ∈ pc.1.set :=
  View.cover_of_tiledL _ S128x5.size (by sl_kernel_rfl) y

def out2_C_11 : Vec F S128x5 .f32 :=
  VO2_11.read (Elt F) (VO2_11.writes (Elt F) VO2_11.junk (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).1)

theorem scover2_C_0 (y : S128x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).2.1, y ∈ pc.1.set :=
  View.cover_of_tiledL _ S128x64.size (by sl_kernel_rfl) y

def sout2_C_0 : Vec F S128x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0).2.1)

end

end

def ptA (c : Dev nD) (t : Fin cfg2.N) (hc0 : cond2_0 (grid2.coords t)) (hc1 : ¬cond2_1 (grid2.coords t)) : Vec F S128x5 .f32 × Vec F S128x64 .f32 :=
  (out2_A_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t),
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t))

def ptB (c : Dev nD) (t : Fin cfg2.N) (hc0 : ¬cond2_0 (grid2.coords t)) (hc1 : ¬cond2_1 (grid2.coords t)) (s : Vec F S128x64 .f32) : Vec F S128x5 .f32 × Vec F S128x64 .f32 :=
  (out2_B_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) s,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) s)

def ptC (c : Dev nD) (t : Fin cfg2.N) (hc0 : ¬cond2_0 (grid2.coords t)) (hc1 : cond2_1 (grid2.coords t)) (s : Vec F S128x64 .f32) : Vec F S128x5 .f32 × Vec F S128x64 .f32 :=
  (out2_C_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) s,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) s)

def outsAt2 (c : Dev nD) : (n : ℕ) → n < cfg2.N → Vec F S128x5 .f32 × Vec F S128x64 .f32
  | 0, hn => ptA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 16 = 0 then
      if h1 : (n + 1) % 16 = 15 then
        False.elim (by omega)
      else
        ptA V c ⟨n + 1, hn⟩ ((hcond2_0 ⟨n + 1, hn⟩).mpr h0) (fun h => h1 ((hcond2_1 ⟨n + 1, hn⟩).mp h))
    else
      if h1 : (n + 1) % 16 = 15 then
        ptC V c ⟨n + 1, hn⟩ (fun h => h0 ((hcond2_0 ⟨n + 1, hn⟩).mp h)) ((hcond2_1 ⟨n + 1, hn⟩).mpr h1) (outsAt2 c n (Nat.lt_of_succ_lt hn)).2
      else
        ptB V c ⟨n + 1, hn⟩ (fun h => h0 ((hcond2_0 ⟨n + 1, hn⟩).mp h)) (fun h => h1 ((hcond2_1 ⟨n + 1, hn⟩).mp h)) (outsAt2 c n (Nat.lt_of_succ_lt hn)).2

theorem outsAt2_A (c : Dev nD) (t : Fin cfg2.N) (h0 : t.val % 16 = 0) (h1 : ¬t.val % 16 = 15) :
    outsAt2 V c t.val t.isLt = ptA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = ptB V c t (fun h => h0 ((hcond2_0 t).mp h)) (fun h => h1 ((hcond2_1 t).mp h)) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = ptC V c t (fun h => h0 ((hcond2_0 t).mp h)) ((hcond2_1 t).mpr h1) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  by_cases h0 : t.val % 16 = 0
  · by_cases h1 : t.val % 16 = 15
    · exfalso; omega
    ·
      rw [Dat.leavesExact_idle (dat2 V c) 11 t (idleAt2_11_A t ((hcond2_0 t).mpr h0) (fun h => h1 ((hcond2_1 t).mp h))) (noFlush2_11_A t ((hcond2_0 t).mpr h0) (fun h => h1 ((hcond2_1 t).mp h)))]
      rw [outsAt2_A V c t h0 h1]
      unfold ptA sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun2_A c (grid2.coords t) _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · exfalso; omega
  · by_cases h1 : t.val % 16 = 15
    ·
      rw [show (dat2 V c).leavesExact 11 t = owns (c : Thread nD τ) (ms2_11 t) fullShare ((dat2 V c).after 11 t) from by
        unfold Dat.leavesExact; rw [liveAt2_11_C t (fun h => h0 ((hcond2_0 t).mp h)) ((hcond2_1 t).mpr h1)], after2_11]
      rw [outsAt2_C V c t h0 h1]
      unfold ptC out2_C_11 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun2_C c (grid2.coords t) _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [HS0]; · iexact HS0
        iintro ⟨H0, H1, H2, H3, H4, H5, H6, H7, H8, H9, H10, ⟨%e11, H11⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        unfold owns; iexists _; isplitr
        swap; · iexact H11
        ipureintro; exact View.read_writes_of_cover _ _ _ _ _ (cover2_C_11 c _ _ _ _ _ _ _ _ _ _ _ _ _ _ _ _ _ _ _ _ _ _ _ _ _ _ _ _ _ _ _ _ _ _ _ _ _ _ _ _ _)
    ·
      rw [Dat.leavesExact_idle (dat2 V c) 11 t (idleAt2_11_B t (fun h => h0 ((hcond2_0 t).mp h)) (fun h => h1 ((hcond2_1 t).mp h))) (noFlush2_11_B t (fun h => h0 ((hcond2_0 t).mp h)) (fun h => h1 ((hcond2_1 t).mp h)))]
      rw [outsAt2_B V c t h0 h1]
      unfold ptB sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun2_B c (grid2.coords t) _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Gen

end
-- ==== Proof.Run.lean ====
import proofs.«430244_j76613626626159_3_alg».proof.Proof.R0
import proofs.«430244_j76613626626159_3_alg».proof.Proof.R1
import proofs.«430244_j76613626626159_3_alg».proof.Proof.R2
import proofs.«430244_j76613626626159_3_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev E3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev E5 : (c : Dev nD) → (b : Ref sig .tc) → Buf (Elt F) ((c : Thread nD τ).loc b) := fun c b => W5 m c b

abbrev W6 : Dev nD → Valuation τ sig (Elt F) := fun c => StableHlo.after hostOps2_1 (W5 m c)
abbrev E6 : (c : Dev nD) → (b : Ref sig .tc) → Buf (Elt F) ((c : Thread nD τ).loc b) := fun c b => W6 m c b

abbrev W7 : Dev nD → Valuation τ sig (Elt F) := fun c => StableHlo.after hostOps2_2 (W6 m c)
abbrev E7 : (c : Dev nD) → (b : Ref sig .tc) → Buf (Elt F) ((c : Thread nD τ).loc b) := fun c b => W7 m c b

abbrev W8 : Dev nD → Valuation τ sig (Elt F) := fun c => StableHlo.after hostOps2_3 (W7 m c)
abbrev E8 : (c : Dev nD) → (b : Ref sig .tc) → Buf (Elt F) ((c : Thread nD τ).loc b) := fun c b => W8 m c b

abbrev W9 : Dev nD → Valuation τ sig (Elt F) := fun c => StableHlo.after hostOps2_4 (W8 m c)
abbrev E9 : (c : Dev nD) → (b : Ref sig .tc) → Buf (Elt F) ((c : Thread nD τ).loc b) := fun c b => W9 m c b

abbrev W10 : Dev nD → Valuation τ sig (Elt F) := fun c => StableHlo.after hostOps2_5 (W9 m c)
abbrev E10 : (c : Dev nD) → (b : Ref sig .tc) → Buf (Elt F) ((c : Thread nD τ).loc b) := fun c b => W10 m c b

abbrev W11 : Dev nD → Valuation τ sig (Elt F) := fun c => StableHlo.after hostOps2_6 (W10 m c)
abbrev E11 : (c : Dev nD) → (b : Ref sig .tc) → Buf (Elt F) ((c : Thread nD τ).loc b) := fun c b => W11 m c b

def W12 (c : Dev nD) : Valuation τ sig (Elt F) :=
  Pipeline.withArrays spec2 c (W11 m c) fun w => (dat2 (E11 m) c).arrAt w cfg2.N
theorem W12_arr (c : Dev nD) (w : Fin cfg2.W) :
    W12 m c (Proc.devRef .tc (Pipeline.arrRef spec2 w)) = (dat2 (E11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev E12 : (c : Dev nD) → (b : Ref sig .tc) → Buf (Elt F) ((c : Thread nD τ).loc b) := fun c b => W12 m c b
theorem hF2 (c : Dev nD) (w : Fin cfg2.W) : (dat2 (E11 m) c).arrAt w cfg2.N = E12 m c (Pipeline.arrRef spec2 w) :=
  (W12_arr m c w).symm
theorem hrest2 (c : Dev nD) : ∀ b, b ∉ Finset.univ.image (Pipeline.arrRef spec2) → E12 m c b = E11 m c b :=
  fun b hb => W12_of_ne m c b fun w e => hb (Finset.mem_image.mpr ⟨w, Finset.mem_univ _, e⟩)

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E11 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m c) ∗ ∃ r, prngReg c r)

theorem phiA_in2 (c : Dev nD) (P : sProp 𝕄) :
    (iprop((∃ r, prngReg c r) ∗ P ∗ Pipeline.scopedRest spec2 c) : sProp 𝕄) ⊢ Pipeline.ΦA spec2 c := by
  unfold Pipeline.ΦA
  iintro ⟨Hp, -, Hr⟩
  isplitl [Hr]; · iexact Hr
  iexact Hp

theorem phiA_out2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_in2 c _).trans (hin2 (E11 m) c)
  hout c := by
    rw [Pipeline.ownSems0_none]
    exact (hout2 (E11 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E11 m c) (E12 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .host (hseg hostOps2_5 hostOps2_5_sub hostOps2_5_fresh (W9 m)),
    .host (hseg hostOps2_6 hostOps2_6_sub hostOps2_6_fresh (W10 m)),
    .region (reg2 m) ]
theorem main_run (c : Dev nD) : main (F := F) c = Pipeline.Seg.run (items m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Gen

end
-- ==== Proof.Args.lean ====
import proofs.«430244_j76613626626159_3_alg».proof.Proof.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

-- What carries an argument across a region: there it is at most an input window, and a region hands those back as entered.
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (E1 m) c).arrAt_in w (hb w rfl) _).trans (A_eq0 (E1 m) c w))
  · exact W2_of_ne m c b fun w e => h ⟨w, e⟩

theorem W4_keep (c : Dev nD) (b : Ref sig .tc) (hb : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (E3 m) c).arrAt_in w (hb w rfl) _).trans (A_eq1 (E3 m) c w))
  · exact W4_of_ne m c b fun w e => h ⟨w, e⟩

theorem W12_keep (c : Dev nD) (b : Ref sig .tc) (hb : ∀ w, Pipeline.arrRef spec2 w = b → (cfg2.win w).isOut = false) :
    W12 m c (Proc.devRef .tc b) = W11 m c (Proc.devRef .tc b) := by
  by_cases h : ∃ w, Pipeline.arrRef spec2 w = b
  · obtain ⟨w, rfl⟩ := h
    exact (W12_arr m c w).trans (((dat2 (E11 m) c).arrAt_in w (hb w rfl) _).trans (A_eq2 (E11 m) c w))
  · exact W12_of_ne m c b fun w e => h ⟨w, e⟩

abbrev args : List (Ref sig .tc) := [main_arg0, main_arg1, main_arg2, main_arg3, main_arg4, main_arg5, main_arg6, main_arg7, main_arg8, main_arg9, main_arg10, main_arg11, main_arg12, main_arg13, main_arg14]

variable (c : Dev nD) (b : Ref sig .tc) (hb : b ∈ args)
include hb

-- No host stretch writes an argument and no region has one as an output: at every boundary it holds its launch contents.
theorem E1_arg : E1 m c b = m ((c : Thread nD τ).loc b) :=
  (StableHlo.after_of_writes_sub hostOps0 _ hostOps0_writes ((by decide : ∀ b ∈ args, b ∉ hostOps0_W) b hb)).trans rfl
theorem W2_arg : W2 m c (Proc.devRef .tc b) = m ((c : Thread nD τ).loc b) :=
  (W2_keep m c b ((by decide : ∀ b ∈ args, ∀ w, Pipeline.arrRef spec0 w = b → (cfg0.win w).isOut = false) b hb)).trans (E1_arg m c b hb)
theorem E3_arg : E3 m c b = m ((c : Thread nD τ).loc b) :=
  (StableHlo.after_of_writes_sub hostOps1 _ hostOps1_writes ((by decide : ∀ b ∈ args, b ∉ hostOps1_W) b hb)).trans (W2_arg m c b hb)
theorem W4_arg : W4 m c (Proc.devRef .tc b) = m ((c : Thread nD τ).loc b) :=
  (W4_keep m c b ((by decide : ∀ b ∈ args, ∀ w, Pipeline.arrRef spec1 w = b → (cfg1.win w).isOut = false) b hb)).trans (E3_arg m c b hb)
theorem E11_arg : E11 m c b = m ((c : Thread nD τ).loc b) :=
  (StableHlo.after_of_writes_sub hostOps2_6 _ hostOps2_6_writes ((by decide : ∀ b ∈ args, b ∉ hostOps2_6_W) b hb)).trans <|
  (StableHlo.after_of_writes_sub hostOps2_5 _ hostOps2_5_writes ((by decide : ∀ b ∈ args, b ∉ hostOps2_5_W) b hb)).trans <|
  (StableHlo.after_of_writes_sub hostOps2_4 _ hostOps2_4_writes ((by decide : ∀ b ∈ args, b ∉ hostOps2_4_W) b hb)).trans <|
  (StableHlo.after_of_writes_sub hostOps2_3 _ hostOps2_3_writes ((by decide : ∀ b ∈ args, b ∉ hostOps2_3_W) b hb)).trans <|
  (StableHlo.after_of_writes_sub hostOps2_2 _ hostOps2_2_writes ((by decide : ∀ b ∈ args, b ∉ hostOps2_2_W) b hb)).trans <|
  (StableHlo.after_of_writes_sub hostOps2_1 _ hostOps2_1_writes ((by decide : ∀ b ∈ args, b ∉ hostOps2_1_W) b hb)).trans <|
  (StableHlo.after_of_writes_sub hostOps2 _ hostOps2_writes ((by decide : ∀ b ∈ args, b ∉ hostOps2_W) b hb)).trans <|
  W4_arg m c b hb
theorem W12_arg : W12 m c (Proc.devRef .tc b) = m ((c : Thread nD τ).loc b) :=
  (W12_keep m c b ((by decide : ∀ b ∈ args, ∀ w, Pipeline.arrRef spec2 w = b → (cfg2.win w).isOut = false) b hb)).trans (E11_arg m c b hb)

end Cert.KernelIdeal.Gen

end
-- ==== Proof.Frames.lean ====
import proofs.«430244_j76613626626159_3_alg».proof.Proof.Args

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev Kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)

theorem kept (c : Dev nD) (μ : (ℓ : Loc nD τ sig) → Buf (Elt F) ℓ)
    (h : ∀ b ∈ Pipeline.ucRefs τ sig, μ (((c : Thread nD τ)).1, b) = W12 m c b) : Kept m μ c :=
  have k : ∀ b ∈ args, μ ((c.tc : Thread nD τ).loc b) = m ((c.tc : Thread nD τ).loc b) := fun b hb =>
    (h _ (mem_uc b ((by decide : ∀ b ∈ args, ¬ (Proc.devRef .tc b : DevRef τ sig).isScoped) b hb))).trans (W12_arg m c b hb)
  ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide)⟩

theorem frame (ρ : Dev nD → PrngReg) : θ_run defs (onTc (τ := τ) (main (F := F))) ⟨m, fun _ => 0, ρ⟩ (fun r => ∀ c : Dev nD,
      Kept m r.2.mem c) :=
  (θ_run defs _ _).mono (fun r h c => kept m c r.2.mem (h c)) (run_all m ρ)

-- What the value claim cites: the same run, with the result's contents named beside the kept arguments.
theorem run_named (ρ : Dev nD → PrngReg) : θ_run defs (onTc (τ := τ) (main (F := F))) ⟨m, fun _ => 0, ρ⟩ (fun r => ∀ c : Dev nD,
      r.2.mem ((c.tc : Thread nD τ).loc main_v36) = W12 m c (Proc.devRef .tc main_v36) ∧ Kept m r.2.mem c) :=
  (θ_run defs _ _).mono (fun r h c => ⟨h c _ (mem_uc main_v36 (by decide)), kept m c r.2.mem (h c)⟩) (run_all m ρ)

end Cert.KernelIdeal.Gen

end
-- ==== Proof.HostDefs.lean ====
import proofs.«430244_j76613626626159_3_alg».proof.Proof.Gen.KernelIdeal.Launch

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def srcK (x1 : IVec S2x1600000 32) : IVec S1600000 32 :=
  shapeCast S1600000 (extractStridedSlice S1x1600000 ![0, 0] x1 slices_S2x1600000_S1x1600000_0_0) shapeCasts_S1x1600000_S1600000

def dstK (x1 : IVec S2x1600000 32) : IVec S1600000 32 :=
  shapeCast S1600000 (extractStridedSlice S1x1600000 ![1, 0] x1 slices_S2x1600000_S1x1600000_1_0) shapeCasts_S1x1600000_S1600000

def sidxK (x1 : IVec S2x1600000 32) : IVec S1600000x1 32 :=
  broadcastInDim S1600000x1 ![0] bcast_S1600000_S1600000x1_0
    (select (cmpi .slt (srcK x1) (broadcastInDim S1600000 ![] bcast_S_S1600000 (constantI S_ 32 0#32)))
      (addi (srcK x1) (broadcastInDim S1600000 ![] bcast_S_S1600000 (constantI S_ 32 100000#32))) (srcK x1))

def didxK (x1 : IVec S2x1600000 32) : IVec S1600000x1 32 :=
  broadcastInDim S1600000x1 ![0] bcast_S1600000_S1600000x1_0 (dstK x1)

def aggK (x1 : IVec S2x1600000 32) (y : FVec F S100000x64 .f32) : FVec F S100000x64 .f32 :=
  Host.scatterAdd scatter_S100000x64_S1600000x1_S1600000x64_1_0_0_1
    (broadcastInDim S100000x64 ![] bcast_S_S100000x64 (constant S_ .f32 0x00000000#32)) (didxK x1)
    (Host.gather gather_S100000x64_S1600000x1_S1600000x64_1_0_n_n_0_1_164 y (sidxK x1))

def padK (y : FVec F S100000x64 .f32) : FVec F S102400x64 .f32 :=
  pad S102400x64 ![0, 0] ![2400, 0] ![0, 0] y (sitofp (F := F) .f32 (constantI S_ 32 0#32)) pads_S100000x64_S102400x64_024000_000 h_S_

def bpadK (x2 : IVec S100000 32) : IVec S1x102400 32 :=
  pad S1x102400 ![0, 0] ![0, 2400] ![0, 0] (shapeCast S1x100000 x2 shapeCasts_S100000_S1x100000) (constantI S_ 32 128#32) pads_S1x100000_S1x102400_000_024000 h_S_

end Cert.KernelIdeal.Gen

end
-- ==== Proof.HostVal.lean ====
import proofs.«430244_j76613626626159_3_alg».proof.Proof.Args
import proofs.«430244_j76613626626159_3_alg».proof.Proof.HostDefs
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_v1 (c : Dev nD) : W1 m c (Proc.devRef .tc main_v1) = srcK (m ((c : Thread nD τ).loc main_arg1)) := by
  show StableHlo.after hostOps0 (W0 m c) (Proc.devRef .tc main_v1) = _
  after_results
  all_goals rfl
theorem W1_v3 (c : Dev nD) : W1 m c (Proc.devRef .tc main_v3) = dstK (m ((c : Thread nD τ).loc main_arg1)) := by
  show StableHlo.after hostOps0 (W0 m c) (Proc.devRef .tc main_v3) = _
  after_results
  all_goals rfl

abbrev Y0 (c : Dev nD) : FVec F S100000x64 .f32 := (dat0 (E1 m) c).arrAt 2 cfg0.N

theorem W2_v1 (c : Dev nD) : W2 m c (Proc.devRef .tc main_v1) = srcK (m ((c : Thread nD τ).loc main_arg1)) :=
  (W2_of_ne m c main_v1 (by decide)).trans (W1_v1 m c)
theorem W2_v3 (c : Dev nD) : W2 m c (Proc.devRef .tc main_v3) = dstK (m ((c : Thread nD τ).loc main_arg1)) :=
  (W2_of_ne m c main_v3 (by decide)).trans (W1_v3 m c)
theorem W2_v4 (c : Dev nD) : W2 m c (Proc.devRef .tc main_v4) = Y0 m c := W2_arr m c 2

theorem E3_v4 (c : Dev nD) : E3 m c main_v4 = Y0 m c :=
  (StableHlo.after_of_writes_sub hostOps1 _ hostOps1_writes (by decide)).trans (W2_v4 m c)
theorem E3_v14' (c : Dev nD) : E3 m c main_v14 = Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (W2 m c (Proc.devRef .tc main_v3)))
      (Host.gather gather_S100000x64_S1600000x1_S1600000x64_1_0_n_n_0_1_164 (W2 m c (Proc.devRef .tc main_v4))
        (broadcastInDim S1600000x1 ![0] bcast_S1600000_S1600000x1_0
          (select (cmpi .slt (W2 m c (Proc.devRef .tc main_v1)) (broadcastInDim S1600000 ![] bcast_S_S1600000 (constantI S_ 32 0#32)))
            (addi (W2 m c (Proc.devRef .tc main_v1)) (broadcastInDim S1600000 ![] bcast_S_S1600000 (constantI S_ 32 100000#32)))
            (W2 m c (Proc.devRef .tc main_v1))))) := by
  show StableHlo.after hostOps1 (W2 m c) (Proc.devRef .tc main_v14) = _
  after_results
  all_goals rfl
theorem E3_v14 (c : Dev nD) : E3 m c main_v14 = aggK (m ((c : Thread nD τ).loc main_arg1)) (Y0 m c) := by
  rw [E3_v14', W2_v1, W2_v3, W2_v4]
  rfl
theorem E3_v15' (c : Dev nD) : E3 m c main_v15 = shapeCast S1x64 (W2 m c (Proc.devRef .tc main_arg4)) shapeCasts_S64_S1x64 := by
  show StableHlo.after hostOps1 (W2 m c) (Proc.devRef .tc main_v15) = _
  after_results
  all_goals rfl
theorem E3_v15 (c : Dev nD) : E3 m c main_v15 = shapeCast S1x64 (m ((c : Thread nD τ).loc main_arg4)) shapeCasts_S64_S1x64 := by
  rw [E3_v15', W2_arg m c main_arg4 (by decide)]
theorem E3_v16' (c : Dev nD) : E3 m c main_v16 = shapeCast S1x64 (W2 m c (Proc.devRef .tc main_arg6)) shapeCasts_S64_S1x64 := by
  show StableHlo.after hostOps1 (W2 m c) (Proc.devRef .tc main_v16) = _
  after_results
  all_goals rfl
theorem E3_v16 (c : Dev nD) : E3 m c main_v16 = shapeCast S1x64 (m ((c : Thread nD τ).loc main_arg6)) shapeCasts_S64_S1x64 := by
  rw [E3_v16', W2_arg m c main_arg6 (by decide)]

abbrev H1 (c : Dev nD) : FVec F S100000x64 .f32 := (dat1 (E3 m) c).arrAt 5 cfg1.N

theorem W4_v17 (c : Dev nD) : W4 m c (Proc.devRef .tc main_v17) = H1 m c := W4_arr m c 5
theorem W4_v1 (c : Dev nD) : W4 m c (Proc.devRef .tc main_v1) = srcK (m ((c : Thread nD τ).loc main_arg1)) :=
  (W4_of_ne m c main_v1 (by decide)).trans ((StableHlo.after_of_writes_sub hostOps1 _ hostOps1_writes (by decide)).trans (W2_v1 m c))
theorem W4_v3 (c : Dev nD) : W4 m c (Proc.devRef .tc main_v3) = dstK (m ((c : Thread nD τ).loc main_arg1)) :=
  (W4_of_ne m c main_v3 (by decide)).trans ((StableHlo.after_of_writes_sub hostOps1 _ hostOps1_writes (by decide)).trans (W2_v3 m c))

theorem E11_v28' (c : Dev nD) : E11 m c main_v28 = padK (W4 m c (Proc.devRef .tc main_v17)) := by
  dsimp only [E11, W11, W10, W9, W8, W7, W6, W5]
  after_results
  all_goals rfl
theorem E11_v28 (c : Dev nD) : E11 m c main_v28 = padK (H1 m c) := by
  rw [E11_v28', W4_v17]
theorem W5_v27' (c : Dev nD) : W5 m c (Proc.devRef .tc main_v27) = Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (W4 m c (Proc.devRef .tc main_v3)))
      (Host.gather gather_S100000x64_S1600000x1_S1600000x64_1_0_n_n_0_1_164 (W4 m c (Proc.devRef .tc main_v17))
        (broadcastInDim S1600000x1 ![0] bcast_S1600000_S1600000x1_0
          (select (cmpi .slt (W4 m c (Proc.devRef .tc main_v1)) (broadcastInDim S1600000 ![] bcast_S_S1600000 (constantI S_ 32 0#32)))
            (addi (W4 m c (Proc.devRef .tc main_v1)) (broadcastInDim S1600000 ![] bcast_S_S1600000 (constantI S_ 32 100000#32)))
            (W4 m c (Proc.devRef .tc main_v1))))) := by
  show StableHlo.after hostOps2 (W4 m c) (Proc.devRef .tc main_v27) = _
  after_results
  all_goals rfl
theorem W5_v27 (c : Dev nD) : W5 m c (Proc.devRef .tc main_v27) = aggK (m ((c : Thread nD τ).loc main_arg1)) (H1 m c) := by
  rw [W5_v27', W4_v1, W4_v3, W4_v17]
  rfl
theorem tail_v29 (V5 : Valuation τ sig (Elt F)) :
    StableHlo.after hostOps2_6 (StableHlo.after hostOps2_5 (StableHlo.after hostOps2_4 (StableHlo.after hostOps2_3 (StableHlo.after hostOps2_2 (StableHlo.after hostOps2_1 V5))))) (Proc.devRef .tc main_v29)
      = padK (V5 (Proc.devRef .tc main_v27)) := by
  after_results
  all_goals rfl
theorem E11_v29' (c : Dev nD) : E11 m c main_v29 = padK (W5 m c (Proc.devRef .tc main_v27)) :=
  tail_v29 (W5 m c)
theorem E11_v29 (c : Dev nD) : E11 m c main_v29 = padK (aggK (m ((c : Thread nD τ).loc main_arg1)) (H1 m c)) := by
  rw [E11_v29', W5_v27]
theorem E11_v31' (c : Dev nD) : E11 m c main_v31 = bpadK (W4 m c (Proc.devRef .tc main_arg2)) := by
  dsimp only [E11, W11, W10, W9, W8, W7, W6, W5]
  after_results
  all_goals rfl
theorem E11_v31 (c : Dev nD) : E11 m c main_v31 = bpadK (m ((c : Thread nD τ).loc main_arg2)) := by
  rw [E11_v31', W4_arg m c main_arg2 (by decide)]
theorem E11_v32' (c : Dev nD) : E11 m c main_v32 = shapeCast S1x64 (W4 m c (Proc.devRef .tc main_arg8)) shapeCasts_S64_S1x64 := by
  dsimp only [E11, W11, W10, W9, W8, W7, W6, W5]
  after_results
  all_goals rfl
theorem E11_v32 (c : Dev nD) : E11 m c main_v32 = shapeCast S1x64 (m ((c : Thread nD τ).loc main_arg8)) shapeCasts_S64_S1x64 := by
  rw [E11_v32', W4_arg m c main_arg8 (by decide)]
theorem E11_v33' (c : Dev nD) : E11 m c main_v33 = shapeCast S1x64 (W4 m c (Proc.devRef .tc main_arg10)) shapeCasts_S64_S1x64 := by
  dsimp only [E11, W11, W10, W9, W8, W7, W6, W5]
  after_results
  all_goals rfl
theorem E11_v33 (c : Dev nD) : E11 m c main_v33 = shapeCast S1x64 (m ((c : Thread nD τ).loc main_arg10)) shapeCasts_S64_S1x64 := by
  rw [E11_v33', W4_arg m c main_arg10 (by decide)]
theorem E11_v34' (c : Dev nD) : E11 m c main_v34 = shapeCast S1x64 (W4 m c (Proc.devRef .tc main_arg12)) shapeCasts_S64_S1x64 := by
  dsimp only [E11, W11, W10, W9, W8, W7, W6, W5]
  after_results
  all_goals rfl
theorem E11_v34 (c : Dev nD) : E11 m c main_v34 = shapeCast S1x64 (m ((c : Thread nD τ).loc main_arg12)) shapeCasts_S64_S1x64 := by
  rw [E11_v34', W4_arg m c main_arg12 (by decide)]
theorem E11_v35' (c : Dev nD) : E11 m c main_v35 = shapeCast S1x5 (W4 m c (Proc.devRef .tc main_arg14)) shapeCasts_S5_S1x5 := by
  dsimp only [E11, W11, W10, W9, W8, W7, W6, W5]
  after_results
  all_goals rfl
theorem E11_v35 (c : Dev nD) : E11 m c main_v35 = shapeCast S1x5 (m ((c : Thread nD τ).loc main_arg14)) shapeCasts_S5_S1x5 := by
  rw [E11_v35', W4_arg m c main_arg14 (by decide)]

theorem W12_v36 (c : Dev nD) : W12 m c (Proc.devRef .tc main_v36) = (dat2 (E11 m) c).arrAt 11 cfg2.N := W12_arr m c 11

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (n b : Nat) : Type := (⟨2, ![n, b]⟩ : Shape).Idx → EReal

abbrev Vec1 (b : Nat) : Type := (⟨1, ![b]⟩ : Shape).Idx → EReal

def vecOf {b : Nat} (r : Arr 1 b) : Vec1 b := fun j => r (ix2 (0 : Fin 1) (j 0))

def mm {n a b : Nat} (x : Arr n a) (w : Arr a b) : Arr n b := fun i => ∑ k : Fin a, x (ix2 (i 0) k) * w (ix2 k (i 1))

def addRow {n b : Nat} (x : Arr n b) (v : Vec1 b) : Arr n b := fun i => x i + v (ix1 (i 1))

def relu {n b : Nat} (x : Arr n b) : Arr n b := fun i => max (x i) 0

def add {n b : Nat} (x y : Arr n b) : Arr n b := fun i => x i + y i

def layer {n a b : Nat} (x : Arr n a) (w : Arr a b) (v : Vec1 b) : Arr n b := relu (addRow (mm x w) v)

def agg {n e b : Nat} (dG : GatherDims ⟨2, ![n, b]⟩ ⟨2, ![e, 1]⟩ ⟨2, ![e, b]⟩) (dS : ScatterDims ⟨2, ![n, b]⟩ ⟨2, ![e, 1]⟩ ⟨2, ![e, b]⟩)
    {w : Nat} (sidx didx : IVec ⟨2, ![e, 1]⟩ w) (x : Arr n b) : Arr n b :=
  Ideal.hostScatterAdd dS (fun _ => (0 : EReal)) didx (Host.gather dG x sidx)

def pool {g n b : Nat} (dS : ScatterDims ⟨2, ![g, b]⟩ ⟨2, ![n, 1]⟩ ⟨2, ![n, b]⟩) {w : Nat} (bidx : IVec ⟨2, ![n, 1]⟩ w) (x : Arr n b) : Arr g b :=
  Ideal.hostScatterAdd dS (fun _ => (0 : EReal)) bidx x

def poolK {g P b : Nat} (bp : IVec ⟨2, ![1, P]⟩ 32) (x : Arr P b) : Arr g b :=
  fun i => ∑ p : Fin P, (if BitVec.ofNat 32 (i 0).val = bp (ix2 (0 : Fin 1) p) then (1 : EReal) else 0) * x (ix2 p (i 1))

end Cert.Spec

end
-- ==== Proof.LibPool.lean ====
import Idealize.ShloMosaic.PureOps.Ideal
import Idealize.ShloMosaic.PureOps.Ideal.Laws
import Idealize.ShloMosaic.Lib.ValueIdx
import Mathlib.Data.EReal.Basic
import Mathlib.Algebra.BigOperators.Fin
import Mathlib.Algebra.BigOperators.Group.Finset.Basic
import Mathlib.Logic.Equiv.Fin.Basic

noncomputable section

open scoped BigOperators

namespace Cert.LibPool

open Idealize.ShloMosaic

theorem onehot_word (a b : BitVec 32) :
    ((((IntOp.cmpi .eq a b).setWidth 32).toInt : ℝ) : EReal) = if a = b then (1 : EReal) else 0 := by
  by_cases h : a = b
  · subst h
    simp [IntOp.cmpi]
  · have hb : (a == b) = false := by simpa using h
    simp [IntOp.cmpi, hb, h]

theorem onehot_entry {s : Shape} (u v : IVec s 32) (h : 1 < 32) (i : s.Idx) :
    (sitofp (F := Ideal) .f32 (extui 32 (cmpi .eq u v) h) : FVec Ideal s .f32) i
      = if u i = v i then (1 : EReal) else 0 :=
  onehot_word (u i) (v i)

theorem toInt_ofNat_small (k : Nat) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1]
  have h2 : 2 * k < 2 ^ 32 := by omega
  rw [if_pos h2]

theorem id_eq_iff (g : Fin 128) (b : BitVec 32) :
    BitVec.ofNat 32 g.val = b ↔ b.toInt = (g.val : Int) := by
  have key : (BitVec.ofNat 32 g.val).toInt = (g.val : Int) :=
    toInt_ofNat_small g.val (by have := g.isLt; omega)
  constructor
  · rintro rfl; exact key
  · intro h; exact BitVec.eq_of_toInt_eq (by rw [key, h])

theorem onehot_sum {M P : Nat} (hMP : M ≤ P) (hit : Fin M → Prop) [DecidablePred hit]
    (ind h : Fin P → EReal)
    (hind1 : ∀ (p : Fin P) (hp : p.val < M), hit ⟨p.val, hp⟩ → ind p = 1)
    (hind0 : ∀ p : Fin P, (∀ hp : p.val < M, ¬ hit ⟨p.val, hp⟩) → ind p = 0) :
    ∑ p : Fin P, ind p * h p
      = ∑ n ∈ (Finset.univ : Finset (Fin M)).filter hit, h ⟨n.val, lt_of_lt_of_le n.isLt hMP⟩ := by
  let G : ℕ → EReal := fun k =>
    if hk : k < M then (if hit ⟨k, hk⟩ then h ⟨k, lt_of_lt_of_le hk hMP⟩ else 0) else 0
  have hL : ∀ p : Fin P, ind p * h p = G p.val := by
    intro p
    by_cases hp : p.val < M
    · by_cases hh : hit ⟨p.val, hp⟩
      · simp [G, hp, hh, hind1 p hp hh]
      · have h0 : ind p = 0 := hind0 p (fun _ => hh)
        simp [G, hp, hh, h0]
    · have h0 : ind p = 0 := hind0 p (fun hp' => absurd hp' hp)
      simp [G, hp, h0]
  have hR : ∀ n : Fin M, (if hit n then h ⟨n.val, lt_of_lt_of_le n.isLt hMP⟩ else 0) = G n.val := by
    intro n
    simp [G, n.isLt]
  rw [Finset.sum_filter, Finset.sum_congr rfl (fun p _ => hL p), Finset.sum_congr rfl (fun n _ => hR n),
    Fin.sum_univ_eq_sum_range G P, Fin.sum_univ_eq_sum_range G M]
  symm
  apply Finset.sum_subset
  · intro k hk
    simp only [Finset.mem_range] at hk ⊢
    omega
  · intro k _ hk
    simp only [Finset.mem_range] at hk
    simp [G, hk]

theorem block_index_lt {T B : Nat} (t : Fin T) (n : Fin B) : t.val * B + n.val < T * B := by
  have h1 : (t.val + 1) * B ≤ T * B := Nat.mul_le_mul_right B t.isLt
  have h2 : t.val * B + n.val < (t.val + 1) * B := by
    rw [Nat.add_mul, Nat.one_mul]; exact Nat.add_lt_add_left n.isLt _
  exact lt_of_lt_of_le h2 h1

theorem blocks_sum (T B : Nat) (f : Fin (T * B) → EReal) :
    (∑ t : Fin T, ∑ n : Fin B, f ⟨t.val * B + n.val, block_index_lt t n⟩) = ∑ p : Fin (T * B), f p := by
  rw [← Fintype.sum_prod_type']
  refine Fintype.sum_equiv finProdFinEquiv _ _ ?_
  rintro ⟨t, n⟩
  congr 1
  apply Fin.ext
  simp [finProdFinEquiv, Nat.mul_comm, Nat.add_comm]

theorem blocks_sum_of_eq {T B P : Nat} (hP : T * B = P) (f : Fin P → EReal) :
    (∑ t : Fin T, ∑ n : Fin B, f ⟨t.val * B + n.val, hP ▸ block_index_lt t n⟩) = ∑ p : Fin P, f p := by
  subst hP
  exact blocks_sum T B f

theorem acc_fold_le (N : Nat) (part acc : ℕ → EReal) (h0 : acc 0 = 0 + part 0)
    (hs : ∀ t, t < N → acc (t + 1) = acc t + part (t + 1)) :
    ∀ k, k ≤ N → acc k = ∑ t ∈ Finset.range (k + 1), part t := by
  intro k
  induction k with
  | zero => intro _; simp [h0]
  | succ k ih =>
    intro hk
    rw [hs k (by omega), ih (by omega), Finset.sum_range_succ _ (k + 1)]

theorem acc_fold (T' : Nat) (part acc : ℕ → EReal) (h0 : acc 0 = 0 + part 0)
    (hs : ∀ t, acc (t + 1) = acc t + part (t + 1)) :
    acc T' = ∑ t ∈ Finset.range (T' + 1), part t :=
  acc_fold_le T' part acc h0 (fun t _ => hs t) T' le_rfl

theorem acc_fold_fin (T' : Nat) (part acc : ℕ → EReal) (h0 : acc 0 = 0 + part 0)
    (hs : ∀ t, t < T' → acc (t + 1) = acc t + part (t + 1)) :
    acc T' = ∑ t : Fin (T' + 1), part t.val := by
  rw [Fin.sum_univ_eq_sum_range part (T' + 1)]
  exact acc_fold_le T' part acc h0 hs T' le_rfl

theorem pool_sum {T B M P : Nat} (hP : T * B = P) (hMP : M ≤ P) (hit : Fin M → Prop) [DecidablePred hit]
    (ind h : Fin P → EReal)
    (hind1 : ∀ (p : Fin P) (hp : p.val < M), hit ⟨p.val, hp⟩ → ind p = 1)
    (hind0 : ∀ p : Fin P, (∀ hp : p.val < M, ¬ hit ⟨p.val, hp⟩) → ind p = 0) :
    (∑ t : Fin T, ∑ n : Fin B,
        ind ⟨t.val * B + n.val, hP ▸ block_index_lt t n⟩ * h ⟨t.val * B + n.val, hP ▸ block_index_lt t n⟩)
      = ∑ n ∈ (Finset.univ : Finset (Fin M)).filter hit, h ⟨n.val, lt_of_lt_of_le n.isLt hMP⟩ :=
  (blocks_sum_of_eq hP (fun p => ind p * h p)).trans (onehot_sum hMP hit ind h hind1 hind0)

end Cert.LibPool
-- ==== Proof.Pay.lean ====
import proofs.«430244_j76613626626159_3_alg».proof.Proof.Gen.KernelIdeal.Skeleton
import proofs.«430244_j76613626626159_3_alg».proof.Proof.Spec
import proofs.«430244_j76613626626159_3_alg».proof.Proof.LibPool
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Cert.Spec Idealize.ShloMosaic Idealize.ShloMosaic.ValueIdx

section Plain
variable {n a b : Nat}

theorem plain_lhs_0 (i : (⟨2, ![n, b]⟩ : Shape).Idx) (q : (DotDims.plain n a b).contr.Idx) :
    ((DotDims.plain n a b).lhsIdx i q 0).val = (i 0).val := by
  unfold DotDims.lhsIdx
  rw [dif_neg (show ¬(0 : Fin (⟨2, ![n, a]⟩ : Shape).rank) ∈ (DotDims.plain n a b).lhsBatch by simp [DotDims.plain]),
    dif_pos (show (0 : Fin (⟨2, ![n, a]⟩ : Shape).rank) ∈ (DotDims.plain n a b).lhsNonContracting by simp [DotDims.plain])]
  rfl

theorem plain_lhs_1 (i : (⟨2, ![n, b]⟩ : Shape).Idx) (q : (DotDims.plain n a b).contr.Idx) :
    ((DotDims.plain n a b).lhsIdx i q 1).val = (q ⟨0, Nat.one_pos⟩).val :=
  (DotDims.plain n a b).lhsIdx_val_of_single rfl i q

theorem plain_rhs_0 (i : (⟨2, ![n, b]⟩ : Shape).Idx) (q : (DotDims.plain n a b).contr.Idx) :
    ((DotDims.plain n a b).rhsIdx i q 0).val = (q ⟨0, Nat.one_pos⟩).val :=
  (DotDims.plain n a b).rhsIdx_val_of_single rfl i q

theorem plain_rhs_1 (i : (⟨2, ![n, b]⟩ : Shape).Idx) (q : (DotDims.plain n a b).contr.Idx) :
    ((DotDims.plain n a b).rhsIdx i q 1).val = (i 1).val := by
  unfold DotDims.rhsIdx
  rw [dif_neg (show ¬(1 : Fin (⟨2, ![a, b]⟩ : Shape).rank) ∈ (DotDims.plain n a b).rhsBatch by simp [DotDims.plain]),
    dif_pos (show (1 : Fin (⟨2, ![a, b]⟩ : Shape).rank) ∈ (DotDims.plain n a b).rhsNonContracting by simp [DotDims.plain])]
  rfl

theorem matmul_plain_zero (prec : Option ContractPrecision) (x : Arr n a) (w : Arr a b) :
    (matmul (F := Ideal) (φ₁ := .f32) (φ₂ := .f32) (DotDims.plain n a b) prec x w (constant _ .f32 0x00000000#32) : Arr n b)
      = Spec.mm x w := by
  funext i
  simp only [matmul]
  rw [Ideal.matmul_constant_zero_apply, ← Equiv.sum_comp (contrEquiv1 (DotDims.plain n a b) a rfl rfl).symm]
  unfold Spec.mm
  refine Finset.sum_congr rfl fun k _ => ?_
  have hk := contrEquiv1_symm_val (DotDims.plain n a b) a rfl rfl k
  have el : (DotDims.plain n a b).lhsIdx i ((contrEquiv1 (DotDims.plain n a b) a rfl rfl).symm k) = ix2 (i 0) k :=
    funext fun c => Fin.ext (by
      match c with
      | ⟨0, _⟩ => exact plain_lhs_0 _ _
      | ⟨1, _⟩ => exact (plain_lhs_1 _ _).trans hk)
  have er : (DotDims.plain n a b).rhsIdx i ((contrEquiv1 (DotDims.plain n a b) a rfl rfl).symm k) = ix2 k (i 1) :=
    funext fun c => Fin.ext (by
      match c with
      | ⟨0, _⟩ => exact (plain_rhs_0 _ _).trans hk
      | ⟨1, _⟩ => exact plain_rhs_1 _ _)
  rw [el, er]
  rfl

end Plain

theorem broadcastTo_row {α : Type} {n b : Nat} (r : (⟨2, ![1, b]⟩ : Shape).Idx → α)
    (h : (⟨2, ![1, b]⟩ : Shape).Broadcasts ⟨2, ![n, b]⟩) (i : (⟨2, ![n, b]⟩ : Shape).Idx) :
    broadcastTo ⟨2, ![n, b]⟩ r h i = r (ix2 (0 : Fin 1) (i 1)) := by
  refine broadcastTo_apply r h i (ix2 (0 : Fin 1) (i 1)) (fun c => ?_)
  match c with
  | ⟨0, _⟩ => exact (if_pos rfl).symm
  | ⟨1, _⟩ =>
    by_cases hb : b = 1
    · subst hb
      have h1 : (i 1).val < 1 := (i 1).isLt
      have h0 : (i 1).val = 0 := by omega
      exact h0.trans (if_pos rfl).symm
    · exact (if_neg hb).symm

theorem scalar_zero : (Scalar.ofBits (F := Ideal) .f32 0x00000000#32 : Ideal .f32) = (0 : EReal) :=
  Ideal.ofBits_zero_f32

section Layers
variable {n a b : Nat}

theorem bias_eq (y : Arr n b) (v : Arr 1 b) (h : (⟨2, ![1, b]⟩ : Shape).Broadcasts ⟨2, ![n, b]⟩) :
    (addf (F := Ideal) (φ := .f32) y (broadcastTo ⟨2, ![n, b]⟩ v h) : Arr n b) = Spec.addRow y (Spec.vecOf v) := by
  funext i
  show y i + broadcastTo ⟨2, ![n, b]⟩ v h i = y i + v (ix2 (0 : Fin 1) (i 1))
  rw [broadcastTo_row]

theorem relu_eq (y : Arr n b) :
    (maximumf (F := Ideal) (φ := .f32) y (broadcast ⟨2, ![n, b]⟩ (Scalar.ofBits (F := Ideal) .f32 0x00000000#32)) : Arr n b) = Spec.relu y := by
  funext i
  show max (y i) (Scalar.ofBits (F := Ideal) .f32 0x00000000#32) = max (y i) 0
  rw [scalar_zero]

theorem layer_eq (prec : Option ContractPrecision) (x : Arr n a) (w : Arr a b) (v : Arr 1 b)
    (h : (⟨2, ![1, b]⟩ : Shape).Broadcasts ⟨2, ![n, b]⟩) :
    (maximumf (F := Ideal) (φ := .f32)
      (addf (matmul (F := Ideal) (φ₁ := .f32) (φ₂ := .f32) (DotDims.plain n a b) prec x w (constant _ .f32 0x00000000#32)) (broadcastTo ⟨2, ![n, b]⟩ v h))
      (broadcast ⟨2, ![n, b]⟩ (Scalar.ofBits (F := Ideal) .f32 0x00000000#32)) : Arr n b) = Spec.layer x w (Spec.vecOf v) := by
  rw [matmul_plain_zero, bias_eq, relu_eq]
  rfl

end Layers

theorem dot0_eq : dot_S10000x128_S128x64_S10000x64_1_0_0_1_n_n = DotDims.plain 10000 128 64 := rfl

theorem dot1_eq : dot_S10000x64_S64x64_S10000x64_1_0_0_1_n_n = DotDims.plain 10000 64 64 := rfl

theorem dot2a_eq : dot_S6400x64_S64x64_S6400x64_1_0_0_1_n_n = DotDims.plain 6400 64 64 := rfl

theorem dot2b_eq : dot_S128x6400_S6400x64_S128x64_1_0_0_1_n_n = DotDims.plain 128 6400 64 := rfl

theorem dot2c_eq : dot_S128x64_S64x64_S128x64_1_0_0_1_n_n = DotDims.plain 128 64 64 := rfl

theorem dot2d_eq : dot_S128x64_S64x5_S128x5_1_0_0_1_n_n = DotDims.plain 128 64 5 := rfl

theorem pay0 (x0 : Vec Ideal S10000x128 .f32) (x1 : Vec Ideal S128x64 .f32) :
    k0_pay1 (F := Ideal) x0 x1 = Spec.mm x0 x1 := by
  unfold k0_pay1
  rw [dot0_eq]
  exact matmul_plain_zero none x0 x1

theorem pay1 (x0 x1 : Vec Ideal S10000x64 .f32) (x2 : Vec Ideal S1x64 .f32) (x3 : Vec Ideal S64x64 .f32)
    (x4 : Vec Ideal S1x64 .f32) :
    k1_pay1 (F := Ideal) x0 x1 x2 x3 x4
      = Spec.layer (Spec.relu (Spec.addRow (Spec.add x0 x1) (Spec.vecOf x2))) x3 (Spec.vecOf x4) := by
  unfold k1_pay1
  simp only [shapeCast_self]
  rw [dot1_eq, layer_eq, bias_eq, relu_eq]
  rfl

theorem pay2_2 (v40 : Vec Ideal S128x64 .f32) (v41 : Vec Ideal S64x64 .f32) (v43 : Vec Ideal S1x64 .f32)
    (v49 : Vec Ideal S64x5 .f32) (v51 : Vec Ideal S1x5 .f32) :
    k2_pay2 (F := Ideal) v40 v41 v43 v49 v51
      = Spec.addRow (Spec.mm (Spec.layer v40 v41 (Spec.vecOf v43)) v49) (Spec.vecOf v51) := by
  unfold k2_pay2
  simp only [shapeCast_self]
  rw [dot2c_eq, dot2d_eq, layer_eq, matmul_plain_zero, bias_eq]

theorem pay2_1 (v : FVec Ideal S128x64 .f32) : k2_pay1 (F := Ideal) v = v := by
  unfold k2_pay1
  exact shapeCast_self _ _

theorem pay2_3 : k2_pay3 (F := Ideal) = fun _ => (0 : EReal) := by
  unfold k2_pay3
  simp only [shapeCast_self]
  funext i
  exact scalar_zero

theorem onehot_eq (x6 : IVec S1x6400 32) (i : S128x6400.Idx) :
    (sitofp (F := Ideal) .f32 (extui 32 (cmpi .eq (iota .tc S128x6400 32 [0] iota_S128x6400_d0_w32)
        (broadcastTo S128x6400 x6 broadcasts_S1x6400_S128x6400)) natLt_1_32) : FVec Ideal S128x6400 .f32) i
      = if BitVec.ofNat 32 (i 0).val = x6 (ix2 (0 : Fin 1) (i 1)) then (1 : EReal) else 0 := by
  rw [Cert.LibPool.onehot_entry, broadcastTo_row]
  have hi : iota .tc S128x6400 32 [0] iota_S128x6400_d0_w32 i = BitVec.ofNat 32 (i 0).val := by
    show BitVec.ofNat 32 (0 * 128 + (i 0).val) = BitVec.ofNat 32 (i 0).val
    rw [Nat.zero_mul, Nat.zero_add]
  rw [hi]

theorem pay2_4 (x0 x1 : Vec Ideal S6400x64 .f32) (x2 : Vec Ideal S64x64 .f32) (x3 : Vec Ideal S1x64 .f32)
    (x4 : Vec Ideal S64x64 .f32) (x5 : Vec Ideal S1x64 .f32) (x6 : Vec Ideal S1x6400 .i32) (s : Vec Ideal S128x64 .f32) :
    k2_pay4 (F := Ideal) x0 x1 x2 x3 x4 x5 x6 s
      = Spec.add s (Spec.poolK x6 (Spec.layer (Spec.layer (Spec.add x0 x1) x2 (Spec.vecOf x3)) x4 (Spec.vecOf x5))) := by
  unfold k2_pay4
  simp only [shapeCast_self]
  rw [dot2a_eq, dot2b_eq, layer_eq, layer_eq, matmul_plain_zero]
  funext i
  show s i + Spec.mm _ _ i = s i + Spec.poolK x6 _ i
  unfold Spec.mm Spec.poolK
  congr 1
  refine Finset.sum_congr rfl fun k _ => ?_
  rw [onehot_eq]
  rfl

end Cert.KernelIdeal.Pay
-- ==== Proof.Val0.lean ====
import proofs.«430244_j76613626626159_3_alg».proof.Proof.R0
import proofs.«430244_j76613626626159_3_alg».proof.Proof.Spec
import proofs.«430244_j76613626626159_3_alg».proof.Proof.Pay
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert

variable (V : (c : Dev nD) → (b : Ref sig .tc) → Buf (Elt Ideal) ((c : Thread nD τ).loc b))

theorem hz0 : (![0, 0] : Fin 2 → Nat) = fun _ => 0 := funext fun a => by fin_cases a <;> rfl

theorem mm_at {n N a b : Nat} (x0 : Spec.Arr n a) (x1 : Spec.Arr a b) (A0 : Spec.Arr N a) (A1 : Spec.Arr a b)
    (f0 : (⟨2, ![n, a]⟩ : Shape).Idx → (⟨2, ![N, a]⟩ : Shape).Idx) (f1 : (⟨2, ![a, b]⟩ : Shape).Idx → (⟨2, ![a, b]⟩ : Shape).Idx)
    (hx0 : ∀ x, x0 x = A0 (f0 x)) (hx1 : ∀ x, x1 x = A1 (f1 x))
    (y : (⟨2, ![n, b]⟩ : Shape).Idx) (i : (⟨2, ![N, b]⟩ : Shape).Idx)
    (h00 : ∀ k : Fin a, ((f0 (ix2 (y 0) k)) 0).val = (i 0).val) (h01 : ∀ k : Fin a, ((f0 (ix2 (y 0) k)) 1).val = k.val)
    (h10 : ∀ k : Fin a, ((f1 (ix2 k (y 1))) 0).val = k.val) (h11 : ∀ k : Fin a, ((f1 (ix2 k (y 1))) 1).val = (i 1).val) :
    Spec.mm x0 x1 y = Spec.mm A0 A1 i := by
  unfold Spec.mm
  refine Finset.sum_congr rfl fun k _ => ?_
  rw [hx0, hx1]
  congr 2
  · exact Shape.idx_ext₂ (h00 k) (h01 k)
  · exact Shape.idx_ext₂ (h10 k) (h11 k)

theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

set_option maxHeartbeats 400000 in

theorem flushed0_eq (c : Dev nD) (t : Fin cfg0.N) :
    (dat0 (F := Ideal) V c).flushed 2 t = ((cfg0.win 2).blk t).view.read (Elt Ideal) (Spec.mm (V c main_arg0) (V c main_arg3)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  rw [Pay.pay0]
  obtain ⟨e0, e1, e2, e3, e4, e5⟩ := idx_facts0 t
  funext y
  show Spec.mm (iblk0 V c 0 t) (iblk0 V c 1 t) y = Spec.mm (V c main_arg0) (V c main_arg3) (((cfg0.win 2).blk t).view.emb y)
  refine mm_at (n := 10000) (N := 100000) (a := 128) (b := 64) (iblk0 V c 0 t) (iblk0 V c 1 t) (V c main_arg0) (V c main_arg3)
    ((cfg0.win 0).blk t).view.emb ((cfg0.win 1).blk t).view.emb (fun _ => rfl) (fun _ => rfl) y _ (fun k => ?_) (fun k => ?_) (fun k => ?_) (fun k => ?_)
  · show win0_0.index t (0 : Fin 2) * 10000 + 1 * (y 0).val = win0_2.index t (0 : Fin 2) * 10000 + 1 * (y 0).val
    rw [e0]
  · show win0_0.index t (1 : Fin 2) * 128 + 1 * k.val = k.val
    rw [e1]; omega
  · show win0_1.index t (0 : Fin 2) * 128 + 1 * k.val = k.val
    rw [e2]; omega
  · show win0_1.index t (1 : Fin 2) * 64 + 1 * (y 1).val = win0_2.index t (1 : Fin 2) * 64 + 1 * (y 1).val
    rw [e3, e4]

theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [show cfg0.N = 10 from N_0]; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e5, ht]; omega
  | ⟨1, _⟩ =>
    show win0_2.index t (1 : Fin 2) * 64 ≤ (i 1).val ∧ (i 1).val < win0_2.index t (1 : Fin 2) * 64 + 64
    rw [e4]; omega

theorem final0 (c : Dev nD) : (dat0 (F := Ideal) V c).arrAt 2 cfg0.N = Spec.mm (V c main_arg0) (V c main_arg3) :=
  (dat0 V c).arrAt_eq_of_cover 2 (Spec.mm (V c main_arg0) (V c main_arg3)) (fun t _ => flushed0_eq V c t) cover0

end Cert.KernelIdeal.Gen

end
-- ==== Proof.Val1.lean ====
import proofs.«430244_j76613626626159_3_alg».proof.Proof.R1
import proofs.«430244_j76613626626159_3_alg».proof.Proof.Spec
import proofs.«430244_j76613626626159_3_alg».proof.Proof.Pay
import proofs.«430244_j76613626626159_3_alg».proof.Proof.Val0
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert

variable (V : (c : Dev nD) → (b : Ref sig .tc) → Buf (Elt Ideal) ((c : Thread nD τ).loc b))

theorem layer_at {n N a b : Nat} (x0 x1 : Spec.Arr n a) (x2 : Spec.Arr 1 a) (x3 : Spec.Arr a b) (x4 : Spec.Arr 1 b)
    (A0 A1 : Spec.Arr N a) (A2 : Spec.Arr 1 a) (A3 : Spec.Arr a b) (A4 : Spec.Arr 1 b)
    (f : (⟨2, ![n, a]⟩ : Shape).Idx → (⟨2, ![N, a]⟩ : Shape).Idx) (r : Nat)
    (hf0 : ∀ x, ((f x) 0).val = r + (x 0).val) (hf1 : ∀ x, ((f x) 1).val = (x 1).val)
    (hx0 : ∀ x, x0 x = A0 (f x)) (hx1 : ∀ x, x1 x = A1 (f x)) (hx2 : x2 = A2) (hx3 : x3 = A3) (hx4 : x4 = A4)
    (y : (⟨2, ![n, b]⟩ : Shape).Idx) (i : (⟨2, ![N, b]⟩ : Shape).Idx)
    (hi0 : (i 0).val = r + (y 0).val) (hi1 : (i 1).val = (y 1).val) :
    Spec.layer (Spec.relu (Spec.addRow (Spec.add x0 x1) (Spec.vecOf x2))) x3 (Spec.vecOf x4) y
      = Spec.layer (Spec.relu (Spec.addRow (Spec.add A0 A1) (Spec.vecOf A2))) A3 (Spec.vecOf A4) i := by
  subst hx2 hx3 hx4
  have hX : ∀ x, Spec.relu (Spec.addRow (Spec.add x0 x1) (Spec.vecOf x2)) x = Spec.relu (Spec.addRow (Spec.add A0 A1) (Spec.vecOf x2)) (f x) := by
    intro x
    unfold Spec.relu Spec.addRow Spec.add
    have h1 : (f x) 1 = x 1 := Fin.ext (hf1 x)
    rw [hx0, hx1, h1]
  have hy : y 1 = i 1 := Fin.ext hi1.symm
  unfold Spec.layer
  show max (Spec.mm _ x3 y + Spec.vecOf x4 (ix1 (y 1))) 0 = max (Spec.mm _ x3 i + Spec.vecOf x4 (ix1 (i 1))) 0
  rw [mm_at _ x3 _ x3 f id hX (fun _ => rfl) y i (fun k => (hf0 _).trans hi0.symm) (fun k => hf1 _) (fun k => rfl) (fun k => hi1.symm), hy]

theorem idx_facts1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

set_option maxHeartbeats 400000 in

theorem flushed1_eq (c : Dev nD) (t : Fin cfg1.N) :
    (dat1 (F := Ideal) V c).flushed 5 t = ((cfg1.win 5).blk t).view.read (Elt Ideal)
      (Spec.layer (Spec.relu (Spec.addRow (Spec.add (V c main_v4) (V c main_v14)) (Spec.vecOf (V c main_v15)))) (V c main_arg5) (Spec.vecOf (V c main_v16))) := by
  show (cfg1.win 5).cut (grid1.coords t) ((dat1 V c).after 5 t) = _
  rw [after1_5]
  unfold out1_5
  rw [View.canon_unit_zero hz0]
  simp only [View.ld_unit_zero (S := S10000x64) hz0, View.ld_unit_zero (S := S1x64) hz0, View.ld_unit_zero (S := S64x64) hz0]
  rw [Pay.pay1]
  obtain ⟨a0, a1, b0, b1, c0, c1, d0, d1, g0, g1, o1, o0⟩ := idx_facts1 t
  funext y
  show Spec.layer (Spec.relu (Spec.addRow (Spec.add (iblk1 V c 0 t) (iblk1 V c 1 t)) (Spec.vecOf (iblk1 V c 2 t)))) (iblk1 V c 3 t) (Spec.vecOf (iblk1 V c 4 t)) y
    = Spec.layer (Spec.relu (Spec.addRow (Spec.add (V c main_v4) (V c main_v14)) (Spec.vecOf (V c main_v15)))) (V c main_arg5) (Spec.vecOf (V c main_v16)) (((cfg1.win 5).blk t).view.emb y)
  refine layer_at (n := 10000) (N := 100000) (a := 64) (b := 64) (iblk1 V c 0 t) (iblk1 V c 1 t) (iblk1 V c 2 t) (iblk1 V c 3 t) (iblk1 V c 4 t)
    (V c main_v4) (V c main_v14) (V c main_v15) (V c main_arg5) (V c main_v16) ((cfg1.win 5).blk t).view.emb (win1_5.index t (0 : Fin 2) * 10000)
    (fun x => ?_) (fun x => ?_) (fun x => ?_) (fun x => ?_) ?_ ?_ ?_ y _ ?_ ?_
  · show win1_5.index t (0 : Fin 2) * 10000 + 1 * (x 0).val = win1_5.index t (0 : Fin 2) * 10000 + (x 0).val
    omega
  · show win1_5.index t (1 : Fin 2) * 64 + 1 * (x 1).val = (x 1).val
    rw [o1]; omega
  · show V c main_v4 (((cfg1.win 0).blk t).view.emb x) = V c main_v4 (((cfg1.win 5).blk t).view.emb x)
    refine congrArg _ (Shape.idx_ext₂ ?_ ?_)
    · show win1_0.index t (0 : Fin 2) * 10000 + 1 * (x 0).val = win1_5.index t (0 : Fin 2) * 10000 + 1 * (x 0).val
      rw [a0]
    · show win1_0.index t (1 : Fin 2) * 64 + 1 * (x 1).val = win1_5.index t (1 : Fin 2) * 64 + 1 * (x 1).val
      rw [a1, o1]
  · show V c main_v14 (((cfg1.win 1).blk t).view.emb x) = V c main_v14 (((cfg1.win 5).blk t).view.emb x)
    refine congrArg _ (Shape.idx_ext₂ ?_ ?_)
    · show win1_1.index t (0 : Fin 2) * 10000 + 1 * (x 0).val = win1_5.index t (0 : Fin 2) * 10000 + 1 * (x 0).val
      rw [b0]
    · show win1_1.index t (1 : Fin 2) * 64 + 1 * (x 1).val = win1_5.index t (1 : Fin 2) * 64 + 1 * (x 1).val
      rw [b1, o1]
  · funext x
    show V c main_v15 (((cfg1.win 2).blk t).view.emb x) = V c main_v15 x
    refine congrArg _ (Shape.idx_ext₂ ?_ ?_)
    · show win1_2.index t (0 : Fin 2) * 1 + 1 * (x 0).val = (x 0).val
      rw [c0]; omega
    · show win1_2.index t (1 : Fin 2) * 64 + 1 * (x 1).val = (x 1).val
      rw [c1]; omega
  · funext x
    show V c main_arg5 (((cfg1.win 3).blk t).view.emb x) = V c main_arg5 x
    refine congrArg _ (Shape.idx_ext₂ ?_ ?_)
    · show win1_3.index t (0 : Fin 2) * 64 + 1 * (x 0).val = (x 0).val
      rw [d0]; omega
    · show win1_3.index t (1 : Fin 2) * 64 + 1 * (x 1).val = (x 1).val
      rw [d1]; omega
  · funext x
    show V c main_v16 (((cfg1.win 4).blk t).view.emb x) = V c main_v16 x
    refine congrArg _ (Shape.idx_ext₂ ?_ ?_)
    · show win1_4.index t (0 : Fin 2) * 1 + 1 * (x 0).val = (x 0).val
      rw [g0]; omega
    · show win1_4.index t (1 : Fin 2) * 64 + 1 * (x 1).val = (x 1).val
      rw [g1]; omega
  · show win1_5.index t (0 : Fin 2) * 10000 + 1 * (y 0).val = win1_5.index t (0 : Fin 2) * 10000 + (y 0).val
    omega
  · show win1_5.index t (1 : Fin 2) * 64 + 1 * (y 1).val = (y 1).val
    rw [o1]; omega

theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v17).slice (win1_5.rect t)).set ↔ _
  rw [View.set_slice_whole, Rect.mem_set_unit]
  exact Iff.rfl

theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [show cfg1.N = 10 from N_1]; omega⟩, rfl⟩
  obtain ⟨a0, a1, b0, b1, c0, c1, d0, d1, g0, g1, o1, o0⟩ := idx_facts1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    rw [o0, ht]; omega
  | ⟨1, _⟩ =>
    show win1_5.index t (1 : Fin 2) * 64 ≤ (i 1).val ∧ (i 1).val < win1_5.index t (1 : Fin 2) * 64 + 64
    rw [o1]; omega

theorem final1 (c : Dev nD) : (dat1 (F := Ideal) V c).arrAt 5 cfg1.N
    = Spec.layer (Spec.relu (Spec.addRow (Spec.add (V c main_v4) (V c main_v14)) (Spec.vecOf (V c main_v15)))) (V c main_arg5) (Spec.vecOf (V c main_v16)) :=
  (dat1 V c).arrAt_eq_of_cover 5 _ (fun t _ => flushed1_eq V c t) cover1

end Cert.KernelIdeal.Gen

end
-- ==== Proof.R2Val.lean ====
import proofs.«430244_j76613626626159_3_alg».proof.Proof.R2
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

section
variable (c : Dev nD) (i : grid2.Coords) (arg1 : Memref sig .tc .vmem S6400x64 .f32) (harg1 : arg1.IsWhole) (arg2 : Memref sig .tc .vmem S6400x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x6400 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x5 .f32) (harg10 : arg10.IsWhole) (arg11 : Memref sig .tc .vmem S1x5 .f32) (harg11 : arg11.IsWhole) (arg12 : Memref sig .tc .vmem S128x5 .f32) (harg12 : arg12.IsWhole) (arg13 : Memref sig .tc .vmem S128x64 .f32) (harg13 : arg13.IsWhole)

section
variable (hc0 : cond2_0 i) (hc1 : ¬cond2_1 i)
  (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32)

set_option maxHeartbeats 1000000 in

theorem sout2_A_0_eq :
    sout2_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 = k2_pay1 (k2_pay4 x0 x1 x2 x3 x4 x5 x6 (k2_pay3 (F := F))) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10)]
  unfold kernelRun2_A
  dsimp only
  sl_unfold_words

  rw [View.canon_cons_unit_zero (S := S128x64) hz, View.readCov_unit_zero (S := S128x64) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S6400x64) hz, View.ld_unit_zero (S := S64x64) hz, View.ld_unit_zero (S := S1x64) hz, View.ld_unit_zero (S := S1x6400) hz, View.ld_unit_zero (S := S64x5) hz, View.ld_unit_zero (S := S1x5) hz, View.ld_unit_zero (S := S128x5) hz, View.ld_unit_zero (S := S128x64) hz]

end

section
variable (hc0 : ¬cond2_0 i) (hc1 : ¬cond2_1 i)
  (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) (xs0 : Vec F S128x64 .f32)

set_option maxHeartbeats 1000000 in

theorem sout2_B_0_eq :
    sout2_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0 = k2_pay1 (k2_pay4 x0 x1 x2 x3 x4 x5 x6 xs0) := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun2_B
  dsimp only
  sl_unfold_words

  rw [View.canon_unit_zero (S := S128x64) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S6400x64) hz, View.ld_unit_zero (S := S64x64) hz, View.ld_unit_zero (S := S1x64) hz, View.ld_unit_zero (S := S1x6400) hz, View.ld_unit_zero (S := S64x5) hz, View.ld_unit_zero (S := S1x5) hz, View.ld_unit_zero (S := S128x5) hz, View.ld_unit_zero (S := S128x64) hz]

end

section
variable (hc0 : ¬cond2_0 i) (hc1 : cond2_1 i)
  (x0 : Vec F S6400x64 .f32) (x1 : Vec F S6400x64 .f32) (x2 : Vec F S64x64 .f32) (x3 : Vec F S1x64 .f32) (x4 : Vec F S64x64 .f32) (x5 : Vec F S1x64 .f32) (x6 : Vec F S1x6400 .i32) (x7 : Vec F S64x64 .f32) (x8 : Vec F S1x64 .f32) (x9 : Vec F S64x5 .f32) (x10 : Vec F S1x5 .f32) (xs0 : Vec F S128x64 .f32)

set_option maxHeartbeats 1000000 in

theorem sout2_C_0_eq :
    sout2_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0 = k2_pay1 (k2_pay4 x0 x1 x2 x3 x4 x5 x6 xs0) := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun2_C
  dsimp only
  sl_unfold_words

  rw [View.canon_unit_zero (S := S128x64) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S6400x64) hz, View.ld_unit_zero (S := S64x64) hz, View.ld_unit_zero (S := S1x64) hz, View.ld_unit_zero (S := S1x6400) hz, View.ld_unit_zero (S := S64x5) hz, View.ld_unit_zero (S := S1x5) hz, View.ld_unit_zero (S := S128x5) hz, View.ld_unit_zero (S := S128x64) hz]

set_option maxHeartbeats 1000000 in

theorem out2_C_11_eq :
    out2_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0 = k2_pay2 (sout2_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0) x7 x8 x9 x10 := by
  rw [sout2_C_0_eq]
  unfold out2_C_11
  rw [View.read_writes_eq_canon _ _ _ (cover2_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun2_C
  dsimp only
  sl_unfold_words

  rw [View.canon_unit_zero (S := S128x5) hz, View.readCov_unit_zero (S := S128x64) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S6400x64) hz, View.ld_unit_zero (S := S64x64) hz, View.ld_unit_zero (S := S1x64) hz, View.ld_unit_zero (S := S1x6400) hz, View.ld_unit_zero (S := S64x5) hz, View.ld_unit_zero (S := S1x5) hz, View.ld_unit_zero (S := S128x5) hz, View.ld_unit_zero (S := S128x64) hz]

end

end

theorem scratch2_A (c : Dev nD) (t : Fin cfg2.N) (h0 : t.val % 16 = 0) (h1 : ¬t.val % 16 = 15) :
    (outsAt2 V c t.val t.isLt).2 = k2_pay1 (k2_pay4 (iblk2 V c 0 t) (iblk2 V c 1 t) (iblk2 V c 2 t) (iblk2 V c 3 t) (iblk2 V c 4 t) (iblk2 V c 5 t) (iblk2 V c 6 t) (k2_pay3 (F := F))) := by
  rw [outsAt2_A V c t h0 h1]
  unfold ptA; dsimp only
  exact sout2_A_0_eq (F := F) ..

theorem scratch2_B (c : Dev nD) (t : Fin cfg2.N) (h0 : ¬t.val % 16 = 0) (h1 : ¬t.val % 16 = 15) :
    (outsAt2 V c t.val t.isLt).2 = k2_pay1 (k2_pay4 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  rw [outsAt2_B V c t h0 h1]
  unfold ptB; dsimp only
  exact sout2_B_0_eq (F := F) ..

theorem scratch2_C (c : Dev nD) (t : Fin cfg2.N) (h0 : ¬t.val % 16 = 0) (h1 : t.val % 16 = 15) :
    (outsAt2 V c t.val t.isLt).2 = k2_pay1 (k2_pay4 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  rw [outsAt2_C V c t h0 h1]
  unfold ptC; dsimp only
  exact sout2_C_0_eq (F := F) ..

theorem output2_C (c : Dev nD) (t : Fin cfg2.N) (h0 : ¬t.val % 16 = 0) (h1 : t.val % 16 = 15) :
    (outsAt2 V c t.val t.isLt).1 = k2_pay2 ((outsAt2 V c t.val t.isLt).2) (iblk2 V c 7 t) (iblk2 V c 8 t) (iblk2 V c 9 t) (iblk2 V c 10 t) := by
  rw [outsAt2_C V c t h0 h1]
  unfold ptC; dsimp only
  exact out2_C_11_eq (F := F) ..

end Cert.KernelIdeal.Gen

end
-- ==== Proof.Val2.lean ====
import proofs.«430244_j76613626626159_3_alg».proof.Proof.R2
import proofs.«430244_j76613626626159_3_alg».proof.Proof.Spec
import proofs.«430244_j76613626626159_3_alg».proof.Proof.Pay
import proofs.«430244_j76613626626159_3_alg».proof.Proof.LibPool
import Idealize.ShloMosaic.Lib.Pipeline.Value

set_option maxRecDepth 16384

noncomputable section

open scoped BigOperators

namespace Cert.KernelIdeal.Gen

open Idealize.ShloMosaic Idealize.ShloMosaic.TcCoe Idealize.SL.Sem
open Idealize.ShloMosaic.Pipeline (Dat)
open Idealize.ShloMosaic.ValueIdx
open Cert

variable (V : (c : Dev nD) → (b : Ref sig .tc) → Buf (Elt Ideal) ((c : Thread nD τ).loc b))

def part2 (c : Dev nD) (t : Fin cfg2.N) : Spec.Arr 128 64 :=
  Spec.poolK (g := 128) (P := 6400) (iblk2 V c 6 t)
    (Spec.layer (Spec.layer (Spec.add (iblk2 V c 0 t) (iblk2 V c 1 t)) (iblk2 V c 2 t) (Spec.vecOf (iblk2 V c 3 t)))
      (iblk2 V c 4 t) (Spec.vecOf (iblk2 V c 5 t)))

theorem step2 (c : Dev nD) (t : Fin cfg2.N) (s : Vec Ideal S128x64 .f32) :
    k2_pay1 (F := Ideal) (k2_pay4 (iblk2 V c 0 t) (iblk2 V c 1 t) (iblk2 V c 2 t) (iblk2 V c 3 t) (iblk2 V c 4 t) (iblk2 V c 5 t) (iblk2 V c 6 t) s)
      = Spec.add s (part2 V c t) := by
  rw [Pay.pay2_1, Pay.pay2_4]
  rfl

variable (hA : ∀ (c : Dev nD) (t : Fin cfg2.N), t.val % 16 = 0 → ¬ t.val % 16 = 15 →
    (outsAt2 V c t.val t.isLt).2 = k2_pay1 (k2_pay4 (iblk2 V c 0 t) (iblk2 V c 1 t) (iblk2 V c 2 t) (iblk2 V c 3 t) (iblk2 V c 4 t) (iblk2 V c 5 t) (iblk2 V c 6 t) (k2_pay3 (F := Ideal))))
variable (hB : ∀ (c : Dev nD) (t : Fin cfg2.N), ¬ t.val % 16 = 0 → ¬ t.val % 16 = 15 →
    (outsAt2 V c t.val t.isLt).2 = k2_pay1 (k2_pay4 (iblk2 V c 0 t) (iblk2 V c 1 t) (iblk2 V c 2 t) (iblk2 V c 3 t) (iblk2 V c 4 t) (iblk2 V c 5 t) (iblk2 V c 6 t)
      (outsAt2 V c (t.val - 1) (lt_of_le_of_lt (Nat.sub_le _ _) t.isLt)).2))
variable (hC : ∀ (c : Dev nD) (t : Fin cfg2.N), ¬ t.val % 16 = 0 → t.val % 16 = 15 →
    (outsAt2 V c t.val t.isLt).2 = k2_pay1 (k2_pay4 (iblk2 V c 0 t) (iblk2 V c 1 t) (iblk2 V c 2 t) (iblk2 V c 3 t) (iblk2 V c 4 t) (iblk2 V c 5 t) (iblk2 V c 6 t)
      (outsAt2 V c (t.val - 1) (lt_of_le_of_lt (Nat.sub_le _ _) t.isLt)).2))

include hA hB hC in

theorem acc2 (c : Dev nD) : ∀ (n : ℕ) (hn : n < cfg2.N),
    (outsAt2 V c n hn).2 = fun i => ∑ t' : Fin (n + 1), part2 V c ⟨t'.val, lt_of_lt_of_le t'.isLt hn⟩ i := by
  intro n
  induction n with
  | zero =>
    intro hn
    have h := (hA c ⟨0, hn⟩ rfl (by show ¬ 0 % 16 = 15; decide)).trans (step2 V c ⟨0, hn⟩ _)
    rw [h, Pay.pay2_3]
    funext i
    show (0 : EReal) + part2 V c ⟨0, hn⟩ i = _
    rw [zero_add, Fin.sum_univ_one]
    rfl
  | succ n ih =>
    intro hn
    have h16 : n + 1 < 16 := N_2 ▸ hn
    have h0 : ¬ (n + 1) % 16 = 0 := by omega
    have hs : (outsAt2 V c (n + 1) hn).2 = Spec.add (outsAt2 V c n (Nat.lt_of_succ_lt hn)).2 (part2 V c ⟨n + 1, hn⟩) := by
      by_cases h1 : (n + 1) % 16 = 15
      · exact (hC c ⟨n + 1, hn⟩ h0 h1).trans (step2 V c ⟨n + 1, hn⟩ _)
      · exact (hB c ⟨n + 1, hn⟩ h0 h1).trans (step2 V c ⟨n + 1, hn⟩ _)
    rw [hs, ih (Nat.lt_of_succ_lt hn)]
    funext i
    exact (Fin.sum_univ_castSucc (fun t' : Fin (n + 1 + 1) => part2 V c ⟨t'.val, lt_of_lt_of_le t'.isLt hn⟩ i)).symm

def RowsAt {n N a : Nat} (ρ : Fin n → Fin N) (xb : Spec.Arr n a) (x : Spec.Arr N a) : Prop :=
  ∀ (r : Fin n) (k : Fin a), xb (ix2 r k) = x (ix2 (ρ r) k)

theorem RowsAt.add {n N a : Nat} {ρ : Fin n → Fin N} {xb yb : Spec.Arr n a} {x y : Spec.Arr N a}
    (hx : RowsAt ρ xb x) (hy : RowsAt ρ yb y) : RowsAt ρ (Spec.add xb yb) (Spec.add x y) := fun r k => by
  show xb _ + yb _ = x _ + y _
  rw [hx r k, hy r k]

theorem RowsAt.mm {n N a b : Nat} {ρ : Fin n → Fin N} {xb : Spec.Arr n a} {x : Spec.Arr N a}
    (hx : RowsAt ρ xb x) (w : Spec.Arr a b) : RowsAt ρ (Spec.mm xb w) (Spec.mm x w) := fun r j => by
  show (∑ k : Fin a, xb (ix2 r k) * w (ix2 k j)) = ∑ k : Fin a, x (ix2 (ρ r) k) * w (ix2 k j)
  exact Finset.sum_congr rfl fun k _ => by rw [hx r k]

theorem RowsAt.addRow {n N b : Nat} {ρ : Fin n → Fin N} {xb : Spec.Arr n b} {x : Spec.Arr N b}
    (hx : RowsAt ρ xb x) (v : Spec.Vec1 b) : RowsAt ρ (Spec.addRow xb v) (Spec.addRow x v) := fun r k => by
  show xb (ix2 r k) + v (ix1 k) = x (ix2 (ρ r) k) + v (ix1 k)
  rw [hx r k]

theorem RowsAt.relu {n N b : Nat} {ρ : Fin n → Fin N} {xb : Spec.Arr n b} {x : Spec.Arr N b}
    (hx : RowsAt ρ xb x) : RowsAt ρ (Spec.relu xb) (Spec.relu x) := fun r k => by
  show max (xb _) 0 = max (x _) 0
  rw [hx r k]

theorem RowsAt.layer {n N a b : Nat} {ρ : Fin n → Fin N} {xb : Spec.Arr n a} {x : Spec.Arr N a}
    (hx : RowsAt ρ xb x) (w : Spec.Arr a b) (v : Spec.Vec1 b) : RowsAt ρ (Spec.layer xb w v) (Spec.layer x w v) :=
  ((hx.mm w).addRow v).relu

theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = t.val)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

def row2 (t : Fin cfg2.N) (p : Fin 6400) : Fin 102400 :=
  ⟨t.val * 6400 + p.val, by have h : t.val < 16 := N_2 ▸ t.isLt; have := p.isLt; omega⟩

theorem blk2_0 (c : Dev nD) (t : Fin cfg2.N) : RowsAt (row2 t) (iblk2 V c 0 t) (V c main_v28) := fun r k => by
  obtain ⟨⟨e0, e1⟩, -⟩ := idx_facts2 t
  show V c main_v28 (((cfg2.win 0).blk t).view.emb (ix2 r k)) = V c main_v28 (ix2 (row2 t r) k)
  refine congrArg _ (Shape.idx_ext₂ ?_ ?_)
  · show win2_0.index t (0 : Fin 2) * 6400 + 1 * r.val = t.val * 6400 + r.val
    rw [e0]; omega
  · show win2_0.index t (1 : Fin 2) * 64 + 1 * k.val = k.val
    rw [e1]; omega

theorem blk2_1 (c : Dev nD) (t : Fin cfg2.N) : RowsAt (row2 t) (iblk2 V c 1 t) (V c main_v29) := fun r k => by
  obtain ⟨-, ⟨e0, e1⟩, -⟩ := idx_facts2 t
  show V c main_v29 (((cfg2.win 1).blk t).view.emb (ix2 r k)) = V c main_v29 (ix2 (row2 t r) k)
  refine congrArg _ (Shape.idx_ext₂ ?_ ?_)
  · show win2_1.index t (0 : Fin 2) * 6400 + 1 * r.val = t.val * 6400 + r.val
    rw [e0]; omega
  · show win2_1.index t (1 : Fin 2) * 64 + 1 * k.val = k.val
    rw [e1]; omega

theorem blk2_6 (c : Dev nD) (t : Fin cfg2.N) (p : Fin 6400) :
    iblk2 V c 6 t (ix2 (0 : Fin 1) p) = V c main_v31 (ix2 (0 : Fin 1) (row2 t p)) := by
  obtain ⟨-, -, -, -, -, -, ⟨e0, e1⟩, -⟩ := idx_facts2 t
  show V c main_v31 (((cfg2.win 6).blk t).view.emb (ix2 (0 : Fin 1) p)) = V c main_v31 (ix2 (0 : Fin 1) (row2 t p))
  refine congrArg _ (Shape.idx_ext₂ ?_ ?_)
  · show win2_6.index t (0 : Fin 2) * 1 + 1 * 0 = 0
    rw [e0]
  · show win2_6.index t (1 : Fin 2) * 6400 + 1 * p.val = t.val * 6400 + p.val
    rw [e1]; omega

theorem blk2_2 (c : Dev nD) (t : Fin cfg2.N) : iblk2 V c 2 t = V c main_arg7 := by
  obtain ⟨-, -, ⟨e0, e1⟩, -⟩ := idx_facts2 t
  funext x
  show V c main_arg7 (((cfg2.win 2).blk t).view.emb x) = V c main_arg7 x
  refine congrArg _ (Shape.idx_ext₂ ?_ ?_)
  · show win2_2.index t (0 : Fin 2) * 64 + 1 * (x 0).val = (x 0).val
    rw [e0]; omega
  · show win2_2.index t (1 : Fin 2) * 64 + 1 * (x 1).val = (x 1).val
    rw [e1]; omega

theorem blk2_3 (c : Dev nD) (t : Fin cfg2.N) : iblk2 V c 3 t = V c main_v32 := by
  obtain ⟨-, -, -, ⟨e0, e1⟩, -⟩ := idx_facts2 t
  funext x
  show V c main_v32 (((cfg2.win 3).blk t).view.emb x) = V c main_v32 x
  refine congrArg _ (Shape.idx_ext₂ ?_ ?_)
  · show win2_3.index t (0 : Fin 2) * 1 + 1 * (x 0).val = (x 0).val
    rw [e0]; omega
  · show win2_3.index t (1 : Fin 2) * 64 + 1 * (x 1).val = (x 1).val
    rw [e1]; omega

theorem blk2_4 (c : Dev nD) (t : Fin cfg2.N) : iblk2 V c 4 t = V c main_arg9 := by
  obtain ⟨-, -, -, -, ⟨e0, e1⟩, -⟩ := idx_facts2 t
  funext x
  show V c main_arg9 (((cfg2.win 4).blk t).view.emb x) = V c main_arg9 x
  refine congrArg _ (Shape.idx_ext₂ ?_ ?_)
  · show win2_4.index t (0 : Fin 2) * 64 + 1 * (x 0).val = (x 0).val
    rw [e0]; omega
  · show win2_4.index t (1 : Fin 2) * 64 + 1 * (x 1).val = (x 1).val
    rw [e1]; omega

theorem blk2_5 (c : Dev nD) (t : Fin cfg2.N) : iblk2 V c 5 t = V c main_v33 := by
  obtain ⟨-, -, -, -, -, ⟨e0, e1⟩, -⟩ := idx_facts2 t
  funext x
  show V c main_v33 (((cfg2.win 5).blk t).view.emb x) = V c main_v33 x
  refine congrArg _ (Shape.idx_ext₂ ?_ ?_)
  · show win2_5.index t (0 : Fin 2) * 1 + 1 * (x 0).val = (x 0).val
    rw [e0]; omega
  · show win2_5.index t (1 : Fin 2) * 64 + 1 * (x 1).val = (x 1).val
    rw [e1]; omega

theorem blk2_7 (c : Dev nD) (t : Fin cfg2.N) : iblk2 V c 7 t = V c main_arg11 := by
  obtain ⟨-, -, -, -, -, -, -, ⟨e0, e1⟩, -⟩ := idx_facts2 t
  funext x
  show V c main_arg11 (((cfg2.win 7).blk t).view.emb x) = V c main_arg11 x
  refine congrArg _ (Shape.idx_ext₂ ?_ ?_)
  · show win2_7.index t (0 : Fin 2) * 64 + 1 * (x 0).val = (x 0).val
    rw [e0]; omega
  · show win2_7.index t (1 : Fin 2) * 64 + 1 * (x 1).val = (x 1).val
    rw [e1]; omega

theorem blk2_8 (c : Dev nD) (t : Fin cfg2.N) : iblk2 V c 8 t = V c main_v34 := by
  obtain ⟨-, -, -, -, -, -, -, -, ⟨e0, e1⟩, -⟩ := idx_facts2 t
  funext x
  show V c main_v34 (((cfg2.win 8).blk t).view.emb x) = V c main_v34 x
  refine congrArg _ (Shape.idx_ext₂ ?_ ?_)
  · show win2_8.index t (0 : Fin 2) * 1 + 1 * (x 0).val = (x 0).val
    rw [e0]; omega
  · show win2_8.index t (1 : Fin 2) * 64 + 1 * (x 1).val = (x 1).val
    rw [e1]; omega

theorem blk2_9 (c : Dev nD) (t : Fin cfg2.N) : iblk2 V c 9 t = V c main_arg13 := by
  obtain ⟨-, -, -, -, -, -, -, -, -, ⟨e0, e1⟩, -⟩ := idx_facts2 t
  funext x
  show V c main_arg13 (((cfg2.win 9).blk t).view.emb x) = V c main_arg13 x
  refine congrArg _ (Shape.idx_ext₂ ?_ ?_)
  · show win2_9.index t (0 : Fin 2) * 64 + 1 * (x 0).val = (x 0).val
    rw [e0]; omega
  · show win2_9.index t (1 : Fin 2) * 5 + 1 * (x 1).val = (x 1).val
    rw [e1]; omega

theorem blk2_10 (c : Dev nD) (t : Fin cfg2.N) : iblk2 V c 10 t = V c main_v35 := by
  obtain ⟨-, -, -, -, -, -, -, -, -, -, ⟨e0, e1⟩, -⟩ := idx_facts2 t
  funext x
  show V c main_v35 (((cfg2.win 10).blk t).view.emb x) = V c main_v35 x
  refine congrArg _ (Shape.idx_ext₂ ?_ ?_)
  · show win2_10.index t (0 : Fin 2) * 1 + 1 * (x 0).val = (x 0).val
    rw [e0]; omega
  · show win2_10.index t (1 : Fin 2) * 5 + 1 * (x 1).val = (x 1).val
    rw [e1]; omega

def L2 (c : Dev nD) : Spec.Arr 102400 64 :=
  Spec.layer (Spec.layer (Spec.add (V c main_v28) (V c main_v29)) (V c main_arg7) (Spec.vecOf (V c main_v32)))
    (V c main_arg9) (Spec.vecOf (V c main_v33))

theorem part2_eq (c : Dev nD) (t : Fin cfg2.N) (i : (⟨2, ![128, 64]⟩ : Shape).Idx) :
    part2 V c t i = ∑ p : Fin 6400,
      (if BitVec.ofNat 32 (i 0).val = V c main_v31 (ix2 (0 : Fin 1) (row2 t p)) then (1 : EReal) else 0) * L2 V c (ix2 (row2 t p) (i 1)) := by
  have hrows : RowsAt (row2 t)
      (Spec.layer (Spec.layer (Spec.add (iblk2 V c 0 t) (iblk2 V c 1 t)) (iblk2 V c 2 t) (Spec.vecOf (iblk2 V c 3 t))) (iblk2 V c 4 t) (Spec.vecOf (iblk2 V c 5 t)))
      (L2 V c) := by
    rw [blk2_2, blk2_3, blk2_4, blk2_5]
    exact (((blk2_0 V c t).add (blk2_1 V c t)).layer _ _).layer _ _
  unfold part2 Spec.poolK
  refine Finset.sum_congr rfl fun p _ => ?_
  rw [blk2_6, hrows p (i 1)]

theorem pool_blocks2 (c : Dev nD) :
    (fun i => ∑ t' : Fin (15 + 1), part2 V c ⟨t'.val, lt_of_lt_of_le t'.isLt (le_of_eq N_2.symm)⟩ i)
      = Spec.poolK (g := 128) (P := 102400) (V c main_v31) (L2 V c) := by
  funext i
  unfold Spec.poolK
  rw [← Cert.LibPool.blocks_sum_of_eq (T := 16) (B := 6400) (P := 102400) (by norm_num)
    (fun q => (if BitVec.ofNat 32 (i 0).val = V c main_v31 (ix2 (0 : Fin 1) q) then (1 : EReal) else 0) * L2 V c (ix2 q (i 1)))]
  refine Finset.sum_congr rfl fun t' _ => ?_
  rw [part2_eq]
  rfl

variable (hO : ∀ (c : Dev nD) (t : Fin cfg2.N), ¬ t.val % 16 = 0 → t.val % 16 = 15 →
    (outsAt2 V c t.val t.isLt).1 = k2_pay2 ((outsAt2 V c t.val t.isLt).2) (iblk2 V c 7 t) (iblk2 V c 8 t) (iblk2 V c 9 t) (iblk2 V c 10 t))

def G2 (c : Dev nD) : Spec.Arr 128 5 :=
  Spec.addRow (Spec.mm (Spec.layer (Spec.poolK (g := 128) (P := 102400) (V c main_v31) (L2 V c)) (V c main_arg11) (Spec.vecOf (V c main_v34)))
    (V c main_arg13)) (Spec.vecOf (V c main_v35))

include hA hB hC hO in

theorem out2_last (c : Dev nD) (hn : 15 < cfg2.N) : (outsAt2 V c 15 hn).1 = G2 V c := by
  have h : (outsAt2 V c 15 hn).1 = _ :=
    hO c ⟨15, hn⟩ (by show ¬ 15 % 16 = 0; decide) (by show 15 % 16 = 15; decide)
  have ha : (outsAt2 V c 15 hn).2 = Spec.poolK (g := 128) (P := 102400) (V c main_v31) (L2 V c) :=
    (acc2 V hA hB hC c 15 hn).trans (pool_blocks2 V c)
  rw [h, Pay.pay2_2]
  show Spec.addRow (Spec.mm (Spec.layer (outsAt2 V c 15 hn).2 _ _) _) _ = _
  rw [ha, blk2_7, blk2_8, blk2_9, blk2_10]
  rfl

theorem mem_blk2_11 (t : Fin cfg2.N) (i : S128x5.Idx) :
    i ∈ ((cfg2.win 11).blk t).view.set ↔ ∀ a : Fin 2, win2_11.index t a * S128x5.size a ≤ (i a).val ∧ (i a).val < win2_11.index t a * S128x5.size a + S128x5.size a := by
  show i ∈ ((View.whole main_v36).slice (win2_11.rect t)).set ↔ _
  rw [View.set_slice_whole, Rect.mem_set_unit]
  exact Iff.rfl

include hA hB hC hO in

theorem flushed2_eq (c : Dev nD) (t : Fin cfg2.N) (hf : (cfg2.win 11).flush t = true) :
    (dat2 (F := Ideal) V c).flushed 11 t = ((cfg2.win 11).blk t).view.read (Elt Ideal) (G2 V c) := by
  have h15 : t.val % 16 = 15 := (flush2_11 t).mp hf
  have ht16 : t.val < 16 := N_2 ▸ t.isLt
  have htv : t.val = 15 := by omega
  obtain ⟨-, -, -, -, -, -, -, -, -, -, -, ⟨e0, e1⟩⟩ := idx_facts2 t
  have hout : (outsAt2 V c t.val t.isLt).1 = G2 V c := by
    obtain ⟨tv, ht⟩ := t
    simp only at htv
    subst htv
    exact out2_last V hA hB hC hO c ht
  show (cfg2.win 11).cut (grid2.coords t) ((dat2 V c).after 11 t) = _
  rw [after2_11, hout]
  funext y
  show G2 V c y = G2 V c (((cfg2.win 11).blk t).view.emb y)
  refine congrArg _ (Shape.idx_ext₂ ?_ ?_)
  · show (y 0).val = win2_11.index t (0 : Fin 2) * 128 + 1 * (y 0).val
    rw [e0]; omega
  · show (y 1).val = win2_11.index t (1 : Fin 2) * 5 + 1 * (y 1).val
    rw [e1]; omega

theorem cover2 (i : S128x5.Idx) : ∃ t : Fin cfg2.N, (cfg2.win 11).flush t = true ∧ i ∈ ((cfg2.win 11).blk t).view.set := by
  have hi0 : (i 0).val < 128 := (i 0).isLt
  have hi1 : (i 1).val < 5 := (i 1).isLt
  have h15 : 15 < cfg2.N := lt_of_lt_of_le (by decide : 15 < 16) (le_of_eq N_2.symm)
  obtain ⟨-, -, -, -, -, -, -, -, -, -, -, ⟨e0, e1⟩⟩ := idx_facts2 ⟨15, h15⟩
  refine ⟨⟨15, h15⟩, (flush2_11 ⟨15, h15⟩).mpr (by show 15 % 16 = 15; decide), ?_⟩
  rw [mem_blk2_11]
  intro a
  match a with
  | ⟨0, _⟩ =>
    show win2_11.index ⟨15, h15⟩ (0 : Fin 2) * 128 ≤ (i 0).val ∧ (i 0).val < win2_11.index ⟨15, h15⟩ (0 : Fin 2) * 128 + 128
    rw [e0]; omega
  | ⟨1, _⟩ =>
    show win2_11.index ⟨15, h15⟩ (1 : Fin 2) * 5 ≤ (i 1).val ∧ (i 1).val < win2_11.index ⟨15, h15⟩ (1 : Fin 2) * 5 + 5
    rw [e1]; omega

include hA hB hC hO in

theorem final2 (c : Dev nD) : (dat2 (F := Ideal) V c).arrAt 11 cfg2.N =
    Spec.addRow (Spec.mm (Spec.layer (Spec.poolK (g := 128) (V c main_v31) (Spec.layer (Spec.layer (Spec.add (V c main_v28) (V c main_v29)) (V c main_arg7) (Spec.vecOf (V c main_v32))) (V c main_arg9) (Spec.vecOf (V c main_v33)))) (V c main_arg11) (Spec.vecOf (V c main_v34))) (V c main_arg13)) (Spec.vecOf (V c main_v35)) :=
  (dat2 V c).arrAt_eq_of_cover 11 (G2 V c) (fun t hf => flushed2_eq V hA hB hC hO c t hf) cover2

end Cert.KernelIdeal.Gen
-- ==== Proof.KDefs.lean ====
import proofs.«430244_j76613626626159_3_alg».proof.Proof.HostDefs
import proofs.«430244_j76613626626159_3_alg».proof.Proof.Spec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

abbrev rowv (b : FVec Ideal S64 .f32) : Spec.Vec1 64 := Spec.vecOf (shapeCast S1x64 b shapeCasts_S64_S1x64)
abbrev rowv5 (b : FVec Ideal S5 .f32) : Spec.Vec1 5 := Spec.vecOf (shapeCast S1x5 b shapeCasts_S5_S1x5)

def h1K (x0 : FVec Ideal S100000x128 .f32) (x1 : IVec S2x1600000 32) (x3 : FVec Ideal S128x64 .f32) (x4 : FVec Ideal S64 .f32)
    (x5 : FVec Ideal S64x64 .f32) (x6 : FVec Ideal S64 .f32) : Spec.Arr 100000 64 :=
  Spec.layer (Spec.relu (Spec.addRow (Spec.add (Spec.mm x0 x3) (aggK (F := Ideal) x1 (Spec.mm x0 x3))) (rowv x4))) x5 (rowv x6)

def outK (x0 : FVec Ideal S100000x128 .f32) (x1 : IVec S2x1600000 32) (x2 : IVec S100000 32) (x3 : FVec Ideal S128x64 .f32) (x4 : FVec Ideal S64 .f32)
    (x5 : FVec Ideal S64x64 .f32) (x6 : FVec Ideal S64 .f32) (x7 : FVec Ideal S64x64 .f32) (x8 : FVec Ideal S64 .f32) (x9 : FVec Ideal S64x64 .f32)
    (x10 : FVec Ideal S64 .f32) (x11 : FVec Ideal S64x64 .f32) (x12 : FVec Ideal S64 .f32) (x13 : FVec Ideal S64x5 .f32) (x14 : FVec Ideal S5 .f32) : Spec.Arr 128 5 :=
  Spec.addRow (Spec.mm (Spec.layer (Spec.poolK (g := 128) (bpadK x2)
      (Spec.layer (Spec.layer (Spec.add (padK (F := Ideal) (h1K x0 x1 x3 x4 x5 x6)) (padK (F := Ideal) (aggK (F := Ideal) x1 (h1K x0 x1 x3 x4 x5 x6)))) x7 (rowv x8)) x9 (rowv x10)))
    x11 (rowv x12)) x13) (rowv5 x14)

end Cert.KernelIdeal.Gen

end
-- ==== Proof.KVal.lean ====
import proofs.«430244_j76613626626159_3_alg».proof.Proof.HostVal
import proofs.«430244_j76613626626159_3_alg».proof.Proof.Val0
import proofs.«430244_j76613626626159_3_alg».proof.Proof.Val1
import proofs.«430244_j76613626626159_3_alg».proof.Proof.R2Val
import proofs.«430244_j76613626626159_3_alg».proof.Proof.Val2
import proofs.«430244_j76613626626159_3_alg».proof.Proof.KDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

variable (m : (ℓ : Loc nD τ sig) → Buf (Elt Ideal) ℓ)

theorem Y0_eq (c : Dev nD) : Y0 m c = Spec.mm (m ((c : Thread nD τ).loc main_arg0)) (m ((c : Thread nD τ).loc main_arg3)) := by
  unfold Y0
  rw [final0, E1_arg m c main_arg0 (by decide), E1_arg m c main_arg3 (by decide)]

theorem H1_eq (c : Dev nD) : H1 m c = h1K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold H1
  rw [final1, E3_v4, E3_v14, E3_v15, E3_v16, E3_arg m c main_arg5 (by decide), Y0_eq]
  rfl

theorem kernel_val (c : Dev nD) : W12 m c (Proc.devRef .tc main_v36)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W12_v36, final2 (E11 m) (scratch2_A (E11 m)) (scratch2_B (E11 m)) (scratch2_C (E11 m)) (output2_C (E11 m)) c, E11_v28, E11_v29, E11_v31, E11_v32, E11_v33, E11_v34, E11_v35, E11_arg m c main_arg7 (by decide), E11_arg m c main_arg9 (by decide), E11_arg m c main_arg11 (by decide), E11_arg m c main_arg13 (by decide), H1_eq]
  rfl

end Cert.KernelIdeal.Gen

end
-- ==== Proof.RefVal1.lean ====
import proofs.«430244_j76613626626159_3_alg».proof.Proof.Gen.ReferenceIdeal.Read
import proofs.«430244_j76613626626159_3_alg».proof.Proof.Spec

noncomputable section

namespace Cert.ReferenceIdeal.RefVal

open Cert.ReferenceIdeal Cert.ReferenceIdeal.Gen Cert.ReferenceIdeal.Read Cert.Spec Idealize.ShloMosaic Idealize.ShloMosaic.ValueIdx

theorem add_agg_read {n e b w : Nat} (dG : GatherDims ⟨2, ![n, b]⟩ ⟨2, ![e, 1]⟩ ⟨2, ![e, b]⟩)
    (dS : ScatterDims ⟨2, ![n, b]⟩ ⟨2, ![e, 1]⟩ ⟨2, ![e, b]⟩) (sidx didx : IVec ⟨2, ![e, 1]⟩ w) (x z : Arr n b)
    (hz : z = fun _ => (0 : EReal)) :
    addf (F := Ideal) (φ := .f32) x (Host.scatterAdd (F := Ideal) (φ := .f32) dS z didx (Host.gather dG x sidx))
      = Spec.add x (Spec.agg dG dS sidx didx x) := by
  subst hz
  rfl

theorem layer_read {n a b : Nat} (x : Arr n a) (w : Arr a b) (v : Vec1 b) (out : Arr n b)
    (h : ∀ i, out i = max ((∑ k : Fin a, x (ix2 (i 0) k) * w (ix2 k (i 1))) + v (ix1 (i 1))) 0) :
    out = Spec.layer x w v :=
  funext fun i => (h i).trans rfl

variable (x0 : (⟨S100000x128, .f32⟩ : BufTy).Contents (Elt Ideal)) (x1 : (⟨S2x1600000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

set_option maxHeartbeats 400000 in

theorem zero11 : val_main_v11 (F := Ideal) = fun _ => (0 : EReal) := by
  funext j
  rw [val_main_v11_apply, val_main_cst_apply, Ideal.ofBits_def, Ideal.ofBits_zero_f32]

set_option maxHeartbeats 400000 in

theorem stage14 :
    val_main_v14 (F := Ideal) x0 x1 = Spec.add x0 (Spec.agg gather_S100000x128_S1600000x1_S1600000x128_1_0_n_n_0_1_1128
      scatter_S100000x128_S1600000x1_S1600000x128_1_0_0_1 (val_main_v9 (F := Ideal) x1) (val_main_v12 (F := Ideal) x1) x0) :=
  add_agg_read (n := 100000) (e := 1600000) (b := 128) gather_S100000x128_S1600000x1_S1600000x128_1_0_n_n_0_1_1128
    scatter_S100000x128_S1600000x1_S1600000x128_1_0_0_1 (val_main_v9 (F := Ideal) x1) (val_main_v12 (F := Ideal) x1) x0
    (val_main_v11 (F := Ideal)) zero11

set_option maxHeartbeats 400000 in

theorem stage19 :
    val_main_v19 (F := Ideal) x0 x1 x3 x4 = Spec.layer (val_main_v14 (F := Ideal) x0 x1) x3 x4 := by
  refine layer_read (n := 100000) (a := 128) (b := 64) _ _ _ _ fun i => ?_
  rw [val_main_v19_apply, val_main_v18_apply, val_main_v15_apply, val_main_v17_apply, val_main_v16_apply,
    val_main_call0_v0_apply, val_main_call0_cst_apply, Ideal.ofBits_def, Ideal.ofBits_zero_f32, Ideal.maximumf_def,
    Ideal.addf_def]
  generalize val_main_v14 (F := Ideal) x0 x1 = h
  have e1 : ∀ k : Fin 128, lidx_main_v15 i k = ix2 (n0 := 100000) (n1 := 128) (i 0) k := fun k =>
    funext fun a => Fin.ext (by match a with | ⟨0, _⟩ => rfl | ⟨1, _⟩ => rfl)
  have e2 : ∀ k : Fin 128, ridx_main_v15 i k = ix2 (n0 := 128) (n1 := 64) k (i 1) := fun k =>
    funext fun a => Fin.ext (by match a with | ⟨0, _⟩ => rfl | ⟨1, _⟩ => rfl)
  have e3 : idx_main_v16 (idx_main_v17 i) = ix1 (n := 64) (i 1) :=
    funext fun a => Fin.ext (by match a with | ⟨0, _⟩ => rfl)
  simp only [e1, e2, e3]

set_option maxHeartbeats 400000 in

theorem stage24 :
    val_main_v24 (F := Ideal) x0 x1 x3 x4 x5 x6 = Spec.layer (val_main_v19 (F := Ideal) x0 x1 x3 x4) x5 x6 := by
  refine layer_read (n := 100000) (a := 64) (b := 64) _ _ _ _ fun i => ?_
  rw [val_main_v24_apply, val_main_v23_apply, val_main_v20_apply, val_main_v22_apply, val_main_v21_apply,
    val_main_call1_v0_apply, val_main_call1_cst_apply, Ideal.ofBits_def, Ideal.ofBits_zero_f32, Ideal.maximumf_def,
    Ideal.addf_def]
  generalize val_main_v19 (F := Ideal) x0 x1 x3 x4 = h
  have e1 : ∀ k : Fin 64, lidx_main_v20 i k = ix2 (n0 := 100000) (n1 := 64) (i 0) k := fun k =>
    funext fun a => Fin.ext (by match a with | ⟨0, _⟩ => rfl | ⟨1, _⟩ => rfl)
  have e2 : ∀ k : Fin 64, ridx_main_v20 i k = ix2 (n0 := 64) (n1 := 64) k (i 1) := fun k =>
    funext fun a => Fin.ext (by match a with | ⟨0, _⟩ => rfl | ⟨1, _⟩ => rfl)
  have e3 : idx_main_v21 (idx_main_v22 i) = ix1 (n := 64) (i 1) :=
    funext fun a => Fin.ext (by match a with | ⟨0, _⟩ => rfl)
  simp only [e1, e2, e3]

end Cert.ReferenceIdeal.RefVal

end
-- ==== Proof.RefDefs.lean ====
import proofs.«430244_j76613626626159_3_alg».proof.Proof.Gen.ReferenceIdeal.Read
import proofs.«430244_j76613626626159_3_alg».proof.Proof.Spec

noncomputable section

namespace Cert.ReferenceIdeal.RefVal

open Cert.ReferenceIdeal Cert.ReferenceIdeal.Gen Cert.ReferenceIdeal.Read Cert.Spec Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S64x5, .f32⟩ : BufTy).Contents (Elt Ideal))
  (x14 : (⟨S5, .f32⟩ : BufTy).Contents (Elt Ideal))

def h1R : Spec.Arr 100000 64 :=
  Spec.layer (Spec.layer (Spec.add x0 (Spec.agg gather_S100000x128_S1600000x1_S1600000x128_1_0_n_n_0_1_1128 scatter_S100000x128_S1600000x1_S1600000x128_1_0_0_1 (val_main_v9 (F := Ideal) x1) (val_main_v12 (F := Ideal) x1) x0)) x3 x4) x5 x6

def h2R : Spec.Arr 100000 64 :=
  Spec.layer (Spec.layer (Spec.add (h1R x0 x1 x3 x4 x5 x6) (Spec.agg gather_S100000x64_S1600000x1_S1600000x64_1_0_n_n_0_1_164 scatter_S100000x64_S1600000x1_S1600000x64_1_0_0_1 (val_main_v9 (F := Ideal) x1) (val_main_v12 (F := Ideal) x1) (h1R x0 x1 x3 x4 x5 x6))) x7 x8) x9 x10

def outR : Spec.Arr 128 5 :=
  Spec.addRow (Spec.mm (Spec.layer (Spec.pool scatter_S128x64_S100000x1_S100000x64_1_0_0_1 (val_main_v47 (F := Ideal) x2) (h2R x0 x1 x3 x4 x5 x6 x7 x8 x9 x10)) x11 x12) x13) x14

end Cert.ReferenceIdeal.RefVal

end
-- ==== Proof.RefVal2.lean ====
import proofs.«430244_j76613626626159_3_alg».proof.Proof.RefVal1
import proofs.«430244_j76613626626159_3_alg».proof.Proof.RefDefs

noncomputable section

namespace Cert.ReferenceIdeal.RefVal

open Cert.ReferenceIdeal Cert.ReferenceIdeal.Gen Cert.ReferenceIdeal.Read Cert.Spec Idealize.ShloMosaic Idealize.ShloMosaic.ValueIdx

theorem pool_read {g n b w : Nat} (dS : ScatterDims ⟨2, ![g, b]⟩ ⟨2, ![n, 1]⟩ ⟨2, ![n, b]⟩) (bidx : IVec ⟨2, ![n, 1]⟩ w)
    (x : Arr n b) (z : Arr g b) (hz : z = fun _ => (0 : EReal)) :
    Host.scatterAdd (F := Ideal) (φ := .f32) dS z bidx x = Spec.pool dS bidx x := by
  subst hz
  rfl

theorem affine_read {n a b : Nat} (x : Arr n a) (w : Arr a b) (v : Vec1 b) (out : Arr n b)
    (h : ∀ i, out i = (∑ k : Fin a, x (ix2 (i 0) k) * w (ix2 k (i 1))) + v (ix1 (i 1))) :
    out = Spec.addRow (Spec.mm x w) v :=
  funext fun i => (h i).trans rfl

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S64x5, .f32⟩ : BufTy).Contents (Elt Ideal))
  (x14 : (⟨S5, .f32⟩ : BufTy).Contents (Elt Ideal))

theorem idx30 : val_main_v30 (F := Ideal) x1 = val_main_v9 (F := Ideal) x1 := rfl

theorem idx33 : val_main_v33 (F := Ideal) x1 = val_main_v12 (F := Ideal) x1 := rfl

set_option maxHeartbeats 400000 in

theorem zero32 : val_main_v32 (F := Ideal) = fun _ => (0 : EReal) := by
  funext j
  rw [val_main_v32_apply, val_main_cst_3_apply, Ideal.ofBits_def, Ideal.ofBits_zero_f32]

set_option maxHeartbeats 400000 in

theorem zero46 : val_main_v46 (F := Ideal) = fun _ => (0 : EReal) := by
  funext j
  rw [val_main_v46_apply, val_main_cst_4_apply, Ideal.ofBits_def, Ideal.ofBits_zero_f32]

set_option maxHeartbeats 400000 in

theorem stage35 :
    val_main_v35 (F := Ideal) x0 x1 x3 x4 x5 x6 = Spec.add (val_main_v24 (F := Ideal) x0 x1 x3 x4 x5 x6)
      (Spec.agg gather_S100000x64_S1600000x1_S1600000x64_1_0_n_n_0_1_164 scatter_S100000x64_S1600000x1_S1600000x64_1_0_0_1
        (val_main_v9 (F := Ideal) x1) (val_main_v12 (F := Ideal) x1) (val_main_v24 (F := Ideal) x0 x1 x3 x4 x5 x6)) := by
  unfold val_main_v35 val_main_v34 val_main_v31
  rw [idx30, idx33]
  generalize val_main_v24 (F := Ideal) x0 x1 x3 x4 x5 x6 = z
  exact add_agg_read (n := 100000) (e := 1600000) (b := 64) gather_S100000x64_S1600000x1_S1600000x64_1_0_n_n_0_1_164
    scatter_S100000x64_S1600000x1_S1600000x64_1_0_0_1 (val_main_v9 (F := Ideal) x1) (val_main_v12 (F := Ideal) x1) z
    (val_main_v32 (F := Ideal)) zero32

set_option maxHeartbeats 400000 in

theorem stage40 :
    val_main_v40 (F := Ideal) x0 x1 x3 x4 x5 x6 x7 x8 = Spec.layer (val_main_v35 (F := Ideal) x0 x1 x3 x4 x5 x6) x7 x8 := by
  refine layer_read (n := 100000) (a := 64) (b := 64) _ _ _ _ fun i => ?_
  rw [val_main_v40_apply, val_main_v39_apply, val_main_v36_apply, val_main_v38_apply, val_main_v37_apply,
    val_main_call2_v0_apply, val_main_call2_cst_apply, Ideal.ofBits_def, Ideal.ofBits_zero_f32, Ideal.maximumf_def, Ideal.addf_def]
  generalize val_main_v35 (F := Ideal) x0 x1 x3 x4 x5 x6 = h
  have e1 : ∀ k : Fin 64, lidx_main_v36 i k = ix2 (n0 := 100000) (n1 := 64) (i 0) k := fun k =>
    funext fun d => Fin.ext (by match d with | ⟨0, _⟩ => rfl | ⟨1, _⟩ => rfl)
  have e2 : ∀ k : Fin 64, ridx_main_v36 i k = ix2 (n0 := 64) (n1 := 64) k (i 1) := fun k =>
    funext fun d => Fin.ext (by match d with | ⟨0, _⟩ => rfl | ⟨1, _⟩ => rfl)
  have e3 : idx_main_v37 (idx_main_v38 i) = ix1 (n := 64) (i 1) :=
    funext fun d => Fin.ext (by match d with | ⟨0, _⟩ => rfl)
  simp only [e1, e2, e3]

set_option maxHeartbeats 400000 in

theorem stage45 :
    val_main_v45 (F := Ideal) x0 x1 x3 x4 x5 x6 x7 x8 x9 x10 = Spec.layer (val_main_v40 (F := Ideal) x0 x1 x3 x4 x5 x6 x7 x8) x9 x10 := by
  refine layer_read (n := 100000) (a := 64) (b := 64) _ _ _ _ fun i => ?_
  rw [val_main_v45_apply, val_main_v44_apply, val_main_v41_apply, val_main_v43_apply, val_main_v42_apply,
    val_main_call3_v0_apply, val_main_call3_cst_apply, Ideal.ofBits_def, Ideal.ofBits_zero_f32, Ideal.maximumf_def, Ideal.addf_def]
  generalize val_main_v40 (F := Ideal) x0 x1 x3 x4 x5 x6 x7 x8 = h
  have e1 : ∀ k : Fin 64, lidx_main_v41 i k = ix2 (n0 := 100000) (n1 := 64) (i 0) k := fun k =>
    funext fun d => Fin.ext (by match d with | ⟨0, _⟩ => rfl | ⟨1, _⟩ => rfl)
  have e2 : ∀ k : Fin 64, ridx_main_v41 i k = ix2 (n0 := 64) (n1 := 64) k (i 1) := fun k =>
    funext fun d => Fin.ext (by match d with | ⟨0, _⟩ => rfl | ⟨1, _⟩ => rfl)
  have e3 : idx_main_v42 (idx_main_v43 i) = ix1 (n := 64) (i 1) :=
    funext fun d => Fin.ext (by match d with | ⟨0, _⟩ => rfl)
  simp only [e1, e2, e3]

set_option maxHeartbeats 400000 in

theorem stage48 :
    val_main_v48 (F := Ideal) x0 x1 x2 x3 x4 x5 x6 x7 x8 x9 x10 = Spec.pool scatter_S128x64_S100000x1_S100000x64_1_0_0_1
      (val_main_v47 (F := Ideal) x2) (val_main_v45 (F := Ideal) x0 x1 x3 x4 x5 x6 x7 x8 x9 x10) := by
  unfold val_main_v48
  generalize val_main_v45 (F := Ideal) x0 x1 x3 x4 x5 x6 x7 x8 x9 x10 = z
  exact pool_read (g := 128) (n := 100000) (b := 64) scatter_S128x64_S100000x1_S100000x64_1_0_0_1 (val_main_v47 (F := Ideal) x2) z
    (val_main_v46 (F := Ideal)) zero46

set_option maxHeartbeats 400000 in

theorem stage53 :
    val_main_v53 (F := Ideal) x0 x1 x2 x3 x4 x5 x6 x7 x8 x9 x10 x11 x12 = Spec.layer (val_main_v48 (F := Ideal) x0 x1 x2 x3 x4 x5 x6 x7 x8 x9 x10) x11 x12 := by
  refine layer_read (n := 128) (a := 64) (b := 64) _ _ _ _ fun i => ?_
  rw [val_main_v53_apply, val_main_v52_apply, val_main_v49_apply, val_main_v51_apply, val_main_v50_apply,
    val_main_call4_v0_apply, val_main_call4_cst_apply, Ideal.ofBits_def, Ideal.ofBits_zero_f32, Ideal.maximumf_def, Ideal.addf_def]
  generalize val_main_v48 (F := Ideal) x0 x1 x2 x3 x4 x5 x6 x7 x8 x9 x10 = h
  have e1 : ∀ k : Fin 64, lidx_main_v49 i k = ix2 (n0 := 128) (n1 := 64) (i 0) k := fun k =>
    funext fun d => Fin.ext (by match d with | ⟨0, _⟩ => rfl | ⟨1, _⟩ => rfl)
  have e2 : ∀ k : Fin 64, ridx_main_v49 i k = ix2 (n0 := 64) (n1 := 64) k (i 1) := fun k =>
    funext fun d => Fin.ext (by match d with | ⟨0, _⟩ => rfl | ⟨1, _⟩ => rfl)
  have e3 : idx_main_v50 (idx_main_v51 i) = ix1 (n := 64) (i 1) :=
    funext fun d => Fin.ext (by match d with | ⟨0, _⟩ => rfl)
  simp only [e1, e2, e3]

set_option maxHeartbeats 400000 in

theorem stage57 :
    val_main_v57 (F := Ideal) x0 x1 x2 x3 x4 x5 x6 x7 x8 x9 x10 x11 x12 x13 x14 = Spec.addRow (Spec.mm (val_main_v53 (F := Ideal) x0 x1 x2 x3 x4 x5 x6 x7 x8 x9 x10 x11 x12) x13) x14 := by
  refine affine_read (n := 128) (a := 64) (b := 5) _ _ _ _ fun i => ?_
  rw [val_main_v57_apply, val_main_v54_apply, val_main_v56_apply, val_main_v55_apply, Ideal.addf_def]
  generalize val_main_v53 (F := Ideal) x0 x1 x2 x3 x4 x5 x6 x7 x8 x9 x10 x11 x12 = h
  have e1 : ∀ k : Fin 64, lidx_main_v54 i k = ix2 (n0 := 128) (n1 := 64) (i 0) k := fun k =>
    funext fun d => Fin.ext (by match d with | ⟨0, _⟩ => rfl | ⟨1, _⟩ => rfl)
  have e2 : ∀ k : Fin 64, ridx_main_v54 i k = ix2 (n0 := 64) (n1 := 5) k (i 1) := fun k =>
    funext fun d => Fin.ext (by match d with | ⟨0, _⟩ => rfl | ⟨1, _⟩ => rfl)
  have e3 : idx_main_v55 (idx_main_v56 i) = ix1 (n := 5) (i 1) :=
    funext fun d => Fin.ext (by match d with | ⟨0, _⟩ => rfl)
  simp only [e1, e2, e3]

set_option maxHeartbeats 400000 in

theorem ref_val : val_main_v57 (F := Ideal) x0 x1 x2 x3 x4 x5 x6 x7 x8 x9 x10 x11 x12 x13 x14
    = outR x0 x1 x2 x3 x4 x5 x6 x7 x8 x9 x10 x11 x12 x13 x14 := by
  rw [stage57, stage53, stage48, stage45, stage40, stage35, stage24, stage19, stage14]
  rfl

end Cert.ReferenceIdeal.RefVal

end
-- ==== Proof.LibRowOps.lean ====
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by

  simp only [coe_sum, ← EReal.coe_add, ← EReal.coe_mul]
  congr 1

  simp only [add_mul, Finset.sum_add_distrib, Finset.sum_mul]
  rw [Finset.sum_comm]

abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>

    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>

    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

theorem mem_kept {s : Shape} (axes : List (Fin s.rank)) (a : Fin s.rank) : a ∈ s.kept axes ↔ a ∉ axes := by
  simp [Shape.kept, List.mem_filter, List.mem_finRange]

abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

theorem rowScatter_window0 : (rowScatterDims N E D wf).window j 0 = 0 := by
  unfold ScatterDims.window
  rw [dif_neg (fun h => (mem_kept _ _).mp h (List.mem_singleton.mpr rfl))]

theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.Bridge.lean ====
import proofs.«430244_j76613626626159_3_alg».proof.Proof.Spec
import proofs.«430244_j76613626626159_3_alg».proof.Proof.LibRowOps
import proofs.«430244_j76613626626159_3_alg».proof.Proof.LibPool

noncomputable section

open scoped BigOperators

namespace Cert.Bridge

open Idealize.ShloMosaic Idealize.ShloMosaic.ValueIdx Cert.LibRowOps

theorem mm_apply {n a b : Nat} (x : Spec.Arr n a) (w : Spec.Arr a b) (r : Fin n) (j : Fin b) :
    Spec.mm x w (ix2 r j) = ∑ k : Fin a, x (ix2 r k) * w (ix2 k j) := rfl

theorem add_apply {n b : Nat} (x y : Spec.Arr n b) (i : (⟨2, ![n, b]⟩ : Shape).Idx) :
    Spec.add x y i = x i + y i := rfl

def srcRow {N E w : Nat} (hN : 0 < N) (sidx : IVec ⟨2, ![E, 1]⟩ w) (e : Fin E) : Fin N :=
  ⟨min (sidx (ix2 e ⟨0, Nat.one_pos⟩)).toInt.toNat (N - 1), by omega⟩

theorem agg_apply {N E D w : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (sidx didx : IVec ⟨2, ![E, 1]⟩ w) (x : Spec.Arr N D) (n : Fin N) (c : Fin D) :
    Spec.agg (rowGatherDims N E D wfG) (rowScatterDims N E D wfS) sidx didx x (ix2 n c)
      = ∑ e ∈ Finset.univ.filter (fun e : Fin E => (didx (ix2 e ⟨0, Nat.one_pos⟩)).toInt = (n.val : Int)),
          x (ix2 (srcRow hN sidx e) c) := by
  unfold Spec.agg
  rw [rowScatterAdd_apply, zero_add]
  refine Finset.sum_congr rfl fun e _ => ?_
  rw [rowGather_apply hN]
  rfl

theorem agg_mm {N E A B w : Nat} (hN : 0 < N)
    (wfG_A : GatherDims.WF ⟨2, ![N, A]⟩ ⟨2, ![E, 1]⟩ ⟨2, ![E, A]⟩ [1] [0] [] [0] [] 1 ![1, A])
    (wfS_A : ScatterDims.WF ⟨2, ![N, A]⟩ ⟨2, ![E, 1]⟩ ⟨2, ![E, A]⟩ [1] [0] [0] 1)
    (wfG_B : GatherDims.WF ⟨2, ![N, B]⟩ ⟨2, ![E, 1]⟩ ⟨2, ![E, B]⟩ [1] [0] [] [0] [] 1 ![1, B])
    (wfS_B : ScatterDims.WF ⟨2, ![N, B]⟩ ⟨2, ![E, 1]⟩ ⟨2, ![E, B]⟩ [1] [0] [0] 1)
    (sidx didx : IVec ⟨2, ![E, 1]⟩ w) (x : Spec.Arr N A) (W : Spec.Arr A B)
    (hx : ∃ xr : (⟨2, ![N, A]⟩ : Shape).Idx → ℝ, x = fun i => ((xr i : ℝ) : EReal))
    (hW : ∃ wr : (⟨2, ![A, B]⟩ : Shape).Idx → ℝ, W = fun i => ((wr i : ℝ) : EReal)) :
    Spec.mm (Spec.add x (Spec.agg (rowGatherDims N E A wfG_A) (rowScatterDims N E A wfS_A) sidx didx x)) W
      = Spec.add (Spec.mm x W)
          (Spec.agg (rowGatherDims N E B wfG_B) (rowScatterDims N E B wfS_B) sidx didx (Spec.mm x W)) := by
  funext i
  obtain ⟨n, j, rfl⟩ : ∃ (n : Fin N) (j : Fin B), i = ix2 n j := ⟨i 0, i 1, eq_ix2 i⟩
  rw [mm_apply, add_apply, mm_apply, agg_apply hN]
  simp only [add_apply, agg_apply hN, mm_apply]
  obtain ⟨xr, rfl⟩ := hx
  obtain ⟨wr, rfl⟩ := hW
  exact matvec_segsum (fun n k => xr (ix2 n k)) (fun k j => wr (ix2 k j)) (srcRow hN sidx)
    (fun e n => (didx (ix2 e ⟨0, Nat.one_pos⟩)).toInt = (n.val : Int)) n j

theorem agg_mm_of {N E A B w : Nat} (hN : 0 < N)
    {wfG_A : GatherDims.WF ⟨2, ![N, A]⟩ ⟨2, ![E, 1]⟩ ⟨2, ![E, A]⟩ [1] [0] [] [0] [] 1 ![1, A]}
    {wfS_A : ScatterDims.WF ⟨2, ![N, A]⟩ ⟨2, ![E, 1]⟩ ⟨2, ![E, A]⟩ [1] [0] [0] 1}
    {wfG_B : GatherDims.WF ⟨2, ![N, B]⟩ ⟨2, ![E, 1]⟩ ⟨2, ![E, B]⟩ [1] [0] [] [0] [] 1 ![1, B]}
    {wfS_B : ScatterDims.WF ⟨2, ![N, B]⟩ ⟨2, ![E, 1]⟩ ⟨2, ![E, B]⟩ [1] [0] [0] 1}
    (dGA : GatherDims ⟨2, ![N, A]⟩ ⟨2, ![E, 1]⟩ ⟨2, ![E, A]⟩) (hGA : dGA = rowGatherDims N E A wfG_A)
    (dSA : ScatterDims ⟨2, ![N, A]⟩ ⟨2, ![E, 1]⟩ ⟨2, ![E, A]⟩) (hSA : dSA = rowScatterDims N E A wfS_A)
    (dGB : GatherDims ⟨2, ![N, B]⟩ ⟨2, ![E, 1]⟩ ⟨2, ![E, B]⟩) (hGB : dGB = rowGatherDims N E B wfG_B)
    (dSB : ScatterDims ⟨2, ![N, B]⟩ ⟨2, ![E, 1]⟩ ⟨2, ![E, B]⟩) (hSB : dSB = rowScatterDims N E B wfS_B)
    (sidx didx : IVec ⟨2, ![E, 1]⟩ w) (x : Spec.Arr N A) (W : Spec.Arr A B)
    (hx : ∃ xr : (⟨2, ![N, A]⟩ : Shape).Idx → ℝ, x = fun i => ((xr i : ℝ) : EReal))
    (hW : ∃ wr : (⟨2, ![A, B]⟩ : Shape).Idx → ℝ, W = fun i => ((wr i : ℝ) : EReal)) :
    Spec.mm (Spec.add x (Spec.agg dGA dSA sidx didx x)) W
      = Spec.add (Spec.mm x W) (Spec.agg dGB dSB sidx didx (Spec.mm x W)) := by
  subst hGA hSA hGB hSB
  exact agg_mm hN wfG_A wfS_A wfG_B wfS_B sidx didx x W hx hW

theorem ofNat_eq_iff (k : Nat) (hk : k < 2 ^ 31) (b : BitVec 32) :
    BitVec.ofNat 32 k = b ↔ b.toInt = (k : Int) := by
  have key : (BitVec.ofNat 32 k).toInt = (k : Int) := LibPool.toInt_ofNat_small k hk
  constructor
  · rintro rfl; exact key
  · intro h; exact BitVec.eq_of_toInt_eq (by rw [key, h])

theorem poolK_apply {G P b : Nat} (bp : IVec ⟨2, ![1, P]⟩ 32) (x : Spec.Arr P b) (g : Fin G) (j : Fin b) :
    Spec.poolK (g := G) bp x (ix2 g j)
      = ∑ p : Fin P, (if BitVec.ofNat 32 g.val = bp (ix2 (0 : Fin 1) p) then (1 : EReal) else 0) * x (ix2 p j) := rfl

theorem pool_apply {G M b w : Nat} (wfS : ScatterDims.WF ⟨2, ![G, b]⟩ ⟨2, ![M, 1]⟩ ⟨2, ![M, b]⟩ [1] [0] [0] 1)
    (bidx : IVec ⟨2, ![M, 1]⟩ w) (H : Spec.Arr M b) (g : Fin G) (j : Fin b) :
    Spec.pool (rowScatterDims G M b wfS) bidx H (ix2 g j)
      = ∑ n ∈ Finset.univ.filter (fun n : Fin M => (bidx (ix2 n ⟨0, Nat.one_pos⟩)).toInt = (g.val : Int)),
          H (ix2 n j) := by
  unfold Spec.pool
  rw [rowScatterAdd_apply, zero_add]
  rfl

theorem poolK_eq_pool {G M P b : Nat} (hMP : M ≤ P) (hG : G < 2 ^ 31)
    (wfS : ScatterDims.WF ⟨2, ![G, b]⟩ ⟨2, ![M, 1]⟩ ⟨2, ![M, b]⟩ [1] [0] [0] 1)
    (bidx : IVec ⟨2, ![M, 1]⟩ 32) (bp : IVec ⟨2, ![1, P]⟩ 32) (H : Spec.Arr M b) (Hp : Spec.Arr P b)
    (hb : ∀ n : Fin M, bp (ix2 (0 : Fin 1) ⟨n.val, lt_of_lt_of_le n.isLt hMP⟩) = bidx (ix2 n (0 : Fin 1)))
    (hpad : ∀ p : Fin P, M ≤ p.val → bp (ix2 (0 : Fin 1) p) = BitVec.ofNat 32 G)
    (hH : ∀ (n : Fin M) (j : Fin b), Hp (ix2 ⟨n.val, lt_of_lt_of_le n.isLt hMP⟩ j) = H (ix2 n j)) :
    Spec.poolK (g := G) bp Hp = Spec.pool (rowScatterDims G M b wfS) bidx H := by
  funext i
  obtain ⟨g, j, rfl⟩ : ∃ (g : Fin G) (j : Fin b), i = ix2 g j := ⟨i 0, i 1, eq_ix2 i⟩
  rw [poolK_apply, pool_apply]
  have hg : g.val < 2 ^ 31 := lt_trans g.isLt hG
  refine (LibPool.onehot_sum hMP (fun n : Fin M => (bidx (ix2 n ⟨0, Nat.one_pos⟩)).toInt = (g.val : Int))
    (fun p => if BitVec.ofNat 32 g.val = bp (ix2 (0 : Fin 1) p) then (1 : EReal) else 0) (fun p => Hp (ix2 p j))
    ?_ ?_).trans ?_
  ·
    intro p hp hhit
    have h1 : bp (ix2 (0 : Fin 1) p) = bidx (ix2 ⟨p.val, hp⟩ (0 : Fin 1)) := hb ⟨p.val, hp⟩
    show (if BitVec.ofNat 32 g.val = bp (ix2 (0 : Fin 1) p) then (1 : EReal) else 0) = 1
    rw [if_pos]
    rw [h1]
    exact (ofNat_eq_iff g.val hg _).mpr hhit
  ·
    intro p hno
    show (if BitVec.ofNat 32 g.val = bp (ix2 (0 : Fin 1) p) then (1 : EReal) else 0) = 0
    rw [if_neg]
    intro heq
    by_cases hp : p.val < M
    · have h1 : bp (ix2 (0 : Fin 1) p) = bidx (ix2 ⟨p.val, hp⟩ (0 : Fin 1)) := hb ⟨p.val, hp⟩
      exact hno hp ((ofNat_eq_iff g.val hg _).mp (heq.trans h1))
    · have h2 := hpad p (Nat.le_of_not_lt hp)
      have h3 : (BitVec.ofNat 32 g.val).toInt = (BitVec.ofNat 32 G).toInt := by rw [heq, h2]
      rw [LibPool.toInt_ofNat_small _ hg, LibPool.toInt_ofNat_small _ hG] at h3
      have := g.isLt
      omega
  · exact Finset.sum_congr rfl fun n _ => hH n j

theorem poolK_eq_pool_of {G M P b : Nat} (hMP : M ≤ P) (hG : G < 2 ^ 31)
    {wfS : ScatterDims.WF ⟨2, ![G, b]⟩ ⟨2, ![M, 1]⟩ ⟨2, ![M, b]⟩ [1] [0] [0] 1}
    (dS : ScatterDims ⟨2, ![G, b]⟩ ⟨2, ![M, 1]⟩ ⟨2, ![M, b]⟩) (hd : dS = rowScatterDims G M b wfS)
    (bidx : IVec ⟨2, ![M, 1]⟩ 32) (bp : IVec ⟨2, ![1, P]⟩ 32) (H : Spec.Arr M b) (Hp : Spec.Arr P b)
    (hb : ∀ n : Fin M, bp (ix2 (0 : Fin 1) ⟨n.val, lt_of_lt_of_le n.isLt hMP⟩) = bidx (ix2 n (0 : Fin 1)))
    (hpad : ∀ p : Fin P, M ≤ p.val → bp (ix2 (0 : Fin 1) p) = BitVec.ofNat 32 G)
    (hH : ∀ (n : Fin M) (j : Fin b), Hp (ix2 ⟨n.val, lt_of_lt_of_le n.isLt hMP⟩ j) = H (ix2 n j)) :
    Spec.poolK (g := G) bp Hp = Spec.pool dS bidx H := by
  subst hd
  exact poolK_eq_pool hMP hG wfS bidx bp H Hp hb hpad hH

end Cert.Bridge

end
-- ==== Proof.SpecRows.lean ====
import proofs.«430244_j76613626626159_3_alg».proof.Proof.Spec

noncomputable section

namespace Cert.Spec

open Idealize.ShloMosaic Idealize.ShloMosaic.ValueIdx

def RowsEq {M P a : Nat} (hMP : M ≤ P) (xp : Arr P a) (x : Arr M a) : Prop :=
  ∀ (n : Fin M) (k : Fin a), xp (ix2 ⟨n.val, lt_of_lt_of_le n.isLt hMP⟩ k) = x (ix2 n k)

theorem RowsEq.add {M P a : Nat} {hMP : M ≤ P} {xp yp : Arr P a} {x y : Arr M a} (hx : RowsEq hMP xp x) (hy : RowsEq hMP yp y) :
    RowsEq hMP (Spec.add xp yp) (Spec.add x y) := fun n k => by
  show xp _ + yp _ = x _ + y _
  rw [hx n k, hy n k]

theorem RowsEq.mm {M P a b : Nat} {hMP : M ≤ P} {xp : Arr P a} {x : Arr M a} (hx : RowsEq hMP xp x) (w : Arr a b) :
    RowsEq hMP (Spec.mm xp w) (Spec.mm x w) := fun n j => by
  show (∑ k : Fin a, xp (ix2 ⟨n.val, lt_of_lt_of_le n.isLt hMP⟩ k) * w (ix2 k j)) = ∑ k : Fin a, x (ix2 n k) * w (ix2 k j)
  exact Finset.sum_congr rfl fun k _ => by rw [hx n k]

theorem RowsEq.addRow {M P b : Nat} {hMP : M ≤ P} {xp : Arr P b} {x : Arr M b} (hx : RowsEq hMP xp x) (v : Vec1 b) :
    RowsEq hMP (Spec.addRow xp v) (Spec.addRow x v) := fun n k => by
  show xp (ix2 ⟨n.val, lt_of_lt_of_le n.isLt hMP⟩ k) + v (ix1 k) = x (ix2 n k) + v (ix1 k)
  rw [hx n k]

theorem RowsEq.relu {M P b : Nat} {hMP : M ≤ P} {xp : Arr P b} {x : Arr M b} (hx : RowsEq hMP xp x) :
    RowsEq hMP (Spec.relu xp) (Spec.relu x) := fun n k => by
  show max (xp _) 0 = max (x _) 0
  rw [hx n k]

theorem RowsEq.layer {M P a b : Nat} {hMP : M ≤ P} {xp : Arr P a} {x : Arr M a} (hx : RowsEq hMP xp x) (w : Arr a b) (v : Vec1 b) :
    RowsEq hMP (Spec.layer xp w v) (Spec.layer x w v) := ((hx.mm w).addRow v).relu

end Cert.Spec

end
-- ==== Proof.Glue.lean ====
import proofs.«430244_j76613626626159_3_alg».proof.Proof.HostDefs
import proofs.«430244_j76613626626159_3_alg».proof.Proof.Spec
import proofs.«430244_j76613626626159_3_alg».proof.Proof.SpecRows
import proofs.«430244_j76613626626159_3_alg».proof.Proof.Gen.ReferenceIdeal.Read
import Idealize.ShloMosaic.Lib.KernelVsHost
import Idealize.ShloMosaic.Lib.Pipeline.Value
import Idealize.ShloMosaic.Lib.ValueLayout
import Idealize.ShloMosaic.Lib.ValueIdx
import Idealize.ShloMosaic.PureOps.Ideal.Laws

noncomputable section

namespace Cert.Glue

open Idealize.ShloMosaic Idealize.ShloMosaic.ValueIdx Cert.KernelIdeal Cert.KernelIdeal.Gen

theorem vecOf_reshape {n : Nat} (b : (⟨1, ![n]⟩ : Shape).Idx → EReal)
    (h : (⟨1, ![n]⟩ : Shape).ShapeCasts ⟨2, ![1, n]⟩) : Spec.vecOf (shapeCast ⟨2, ![1, n]⟩ b h) = b := by
  funext j
  exact (shapeCast_a_1a_apply b h 0 (j 0)).trans (congrArg b (eq_ix1 j).symm)

theorem vecOf_reshape64 (b : FVec Ideal S64 .f32) : Spec.vecOf (shapeCast S1x64 b shapeCasts_S64_S1x64) = b :=
  vecOf_reshape b _

theorem vecOf_reshape5 (b : FVec Ideal S5 .f32) : Spec.vecOf (shapeCast S1x5 b shapeCasts_S5_S1x5) = b :=
  vecOf_reshape b _

theorem ofBits_zero : Ideal.ofBits .f32 0x00000000#32 = 0 := by simp [Ideal.ofBits, Ideal.ieee]

theorem aggK_eq (x1 : IVec S2x1600000 32) (y : FVec Ideal S100000x64 .f32) :
    aggK (F := Ideal) x1 y
      = Spec.agg gather_S100000x64_S1600000x1_S1600000x64_1_0_n_n_0_1_164
          scatter_S100000x64_S1600000x1_S1600000x64_1_0_0_1 (sidxK x1) (didxK x1) y := by
  unfold aggK Spec.agg
  have hz : (broadcastInDim S100000x64 ![] bcast_S_S100000x64 (constant (F := Ideal) S_ .f32 0x00000000#32))
      = fun _ => (0 : EReal) := by
    funext i
    exact ofBits_zero
  rw [hz]
  rfl

theorem padK_rows (y : FVec Ideal S100000x64 .f32) :
    Spec.RowsEq (by norm_num : 100000 ≤ 102400) (padK (F := Ideal) y) y := by
  intro n k
  unfold padK
  exact pad_apply_of_inside _ _ _ y _ pads_S100000x64_S102400x64_024000_000 h_S_ _ (ix2 n k) (fun a => match a with
    | ⟨0, _⟩ => by show n.val = 0 + n.val * (0 + 1); omega
    | ⟨1, _⟩ => by show k.val = 0 + k.val * (0 + 1); omega)

theorem bpadK_in (x2 : IVec S100000 32) (n : Fin 100000) :
    bpadK x2 (ix2 (0 : Fin 1) ⟨n.val, by omega⟩) = x2 (ix1 n) := by
  unfold bpadK
  rw [pad_apply_of_inside _ _ _ _ _ pads_S1x100000_S1x102400_000_024000 h_S_ _ (ix2 (0 : Fin 1) n) (fun a => match a with
    | ⟨0, _⟩ => by show (0 : Nat) = 0 + 0 * (0 + 1); omega
    | ⟨1, _⟩ => by show n.val = 0 + n.val * (0 + 1); omega)]
  exact shapeCast_a_1a_apply x2 _ 0 n

theorem bpadK_out (x2 : IVec S100000 32) (p : Fin 102400) (hp : 100000 ≤ p.val) :
    bpadK x2 (ix2 (0 : Fin 1) p) = BitVec.ofNat 32 128 := by
  unfold bpadK
  rw [pad_apply_of_not_inside _ _ _ _ _ pads_S1x100000_S1x102400_000_024000 h_S_ _ (1 : Fin 2) (by
    show ¬ (0 ≤ p.val ∧ (p.val - 0) % (0 + 1) = 0 ∧ (p.val - 0) / (0 + 1) < 100000)
    omega)]
  rfl

theorem sidx_eq (x1 : IVec S2x1600000 32) : sidxK x1 = Cert.ReferenceIdeal.Read.val_main_v9 (F := Ideal) x1 := rfl

theorem didx_eq (x1 : IVec S2x1600000 32) : didxK x1 = Cert.ReferenceIdeal.Read.val_main_v12 (F := Ideal) x1 := rfl

theorem bidx_apply (x2 : IVec S100000 32) (n : Fin 100000) :
    Cert.ReferenceIdeal.Read.val_main_v47 (F := Ideal) x2 (ix2 n (0 : Fin 1)) = x2 (ix1 n) := by
  rw [Cert.ReferenceIdeal.Read.val_main_v47_apply]
  exact congrArg x2 (funext fun a => match a with | ⟨0, _⟩ => rfl)

theorem gatherK_eq : gather_S100000x64_S1600000x1_S1600000x64_1_0_n_n_0_1_164
    = Cert.ReferenceIdeal.gather_S100000x64_S1600000x1_S1600000x64_1_0_n_n_0_1_164 := rfl

theorem scatterK_eq : scatter_S100000x64_S1600000x1_S1600000x64_1_0_0_1
    = Cert.ReferenceIdeal.scatter_S100000x64_S1600000x1_S1600000x64_1_0_0_1 := rfl

end Cert.Glue

end
-- ==== Proof.Meet.lean ====
import proofs.«430244_j76613626626159_3_alg».proof.Proof.KDefs
import proofs.«430244_j76613626626159_3_alg».proof.Proof.RefDefs
import proofs.«430244_j76613626626159_3_alg».proof.Proof.Bridge
import proofs.«430244_j76613626626159_3_alg».proof.Proof.Glue
import proofs.«430244_j76613626626159_3_alg».proof.Proof.SpecRows

noncomputable section

namespace Cert.Meet

open Idealize.ShloMosaic Idealize.ShloMosaic.ValueIdx Cert.KernelIdeal Cert.KernelIdeal.Gen Cert.Glue

section
variable (x0 : FVec Ideal S100000x128 .f32) (x1 : IVec S2x1600000 32) (x2 : IVec S100000 32)
  (x3 : FVec Ideal S128x64 .f32) (x4 : FVec Ideal S64 .f32) (x5 : FVec Ideal S64x64 .f32) (x6 : FVec Ideal S64 .f32)
  (x7 : FVec Ideal S64x64 .f32) (x8 : FVec Ideal S64 .f32) (x9 : FVec Ideal S64x64 .f32) (x10 : FVec Ideal S64 .f32)
  (x11 : FVec Ideal S64x64 .f32) (x12 : FVec Ideal S64 .f32) (x13 : FVec Ideal S64x5 .f32) (x14 : FVec Ideal S5 .f32)

theorem h1_meet
    (hx : ∃ xr : (⟨2, ![100000, 128]⟩ : Shape).Idx → ℝ, x0 = fun i => ((xr i : ℝ) : EReal))
    (hW : ∃ wr : (⟨2, ![128, 64]⟩ : Shape).Idx → ℝ, x3 = fun i => ((wr i : ℝ) : EReal)) :
    Cert.KernelIdeal.Gen.h1K x0 x1 x3 x4 x5 x6 = Cert.ReferenceIdeal.RefVal.h1R x0 x1 x3 x4 x5 x6 := by

  have emm := Cert.Bridge.agg_mm_of (N := 100000) (E := 1600000) (A := 128) (B := 64) (by norm_num)
    Cert.ReferenceIdeal.gather_S100000x128_S1600000x1_S1600000x128_1_0_n_n_0_1_1128 rfl
    Cert.ReferenceIdeal.scatter_S100000x128_S1600000x1_S1600000x128_1_0_0_1 rfl
    gather_S100000x64_S1600000x1_S1600000x64_1_0_n_n_0_1_164 rfl
    scatter_S100000x64_S1600000x1_S1600000x64_1_0_0_1 rfl
    (sidxK x1) (didxK x1) x0 x3 hx hW

  have e4 : rowv x4 = x4 := vecOf_reshape64 x4
  have e6 : rowv x6 = x6 := vecOf_reshape64 x6
  unfold Cert.KernelIdeal.Gen.h1K Cert.ReferenceIdeal.RefVal.h1R
  rw [e4, e6, aggK_eq, ← emm]
  rfl

theorem out_meet
    (hx : ∃ xr : (⟨2, ![100000, 128]⟩ : Shape).Idx → ℝ, x0 = fun i => ((xr i : ℝ) : EReal))
    (hW : ∃ wr : (⟨2, ![128, 64]⟩ : Shape).Idx → ℝ, x3 = fun i => ((wr i : ℝ) : EReal)) :
    Cert.KernelIdeal.Gen.outK x0 x1 x2 x3 x4 x5 x6 x7 x8 x9 x10 x11 x12 x13 x14
      = Cert.ReferenceIdeal.RefVal.outR x0 x1 x2 x3 x4 x5 x6 x7 x8 x9 x10 x11 x12 x13 x14 := by
  have h1e := h1_meet x0 x1 x3 x4 x5 x6 hx hW

  generalize hh1 : Cert.ReferenceIdeal.RefVal.h1R x0 x1 x3 x4 x5 x6 = h1 at h1e
  have ea : aggK (F := Ideal) x1 h1
      = Spec.agg Cert.ReferenceIdeal.gather_S100000x64_S1600000x1_S1600000x64_1_0_n_n_0_1_164
          Cert.ReferenceIdeal.scatter_S100000x64_S1600000x1_S1600000x64_1_0_0_1
          (Cert.ReferenceIdeal.Read.val_main_v9 (F := Ideal) x1) (Cert.ReferenceIdeal.Read.val_main_v12 (F := Ideal) x1) h1 := by
    rw [aggK_eq, gatherK_eq, scatterK_eq, sidx_eq, didx_eq]
  generalize ha : Spec.agg Cert.ReferenceIdeal.gather_S100000x64_S1600000x1_S1600000x64_1_0_n_n_0_1_164
          Cert.ReferenceIdeal.scatter_S100000x64_S1600000x1_S1600000x64_1_0_0_1
          (Cert.ReferenceIdeal.Read.val_main_v9 (F := Ideal) x1) (Cert.ReferenceIdeal.Read.val_main_v12 (F := Ideal) x1) h1 = a at ea

  have hpool := Cert.Bridge.poolK_eq_pool_of (G := 128) (M := 100000) (P := 102400) (b := 64) (by norm_num) (by norm_num)
    Cert.ReferenceIdeal.scatter_S128x64_S100000x1_S100000x64_1_0_0_1 rfl
    (Cert.ReferenceIdeal.Read.val_main_v47 (F := Ideal) x2) (bpadK x2)
    (Spec.layer (Spec.layer (Spec.add h1 a) x7 x8) x9 x10)
    (Spec.layer (Spec.layer (Spec.add (padK (F := Ideal) h1) (padK (F := Ideal) a)) x7 x8) x9 x10)
    (fun n => (bpadK_in x2 n).trans (bidx_apply x2 n).symm)
    (bpadK_out x2)
    ((((padK_rows h1).add (padK_rows a)).layer x7 x8).layer x9 x10)

  have e8 : rowv x8 = x8 := vecOf_reshape64 x8
  have e10 : rowv x10 = x10 := vecOf_reshape64 x10
  have e12 : rowv x12 = x12 := vecOf_reshape64 x12
  have e14 : rowv5 x14 = x14 := vecOf_reshape5 x14
  unfold Cert.KernelIdeal.Gen.outK Cert.ReferenceIdeal.RefVal.outR Cert.ReferenceIdeal.RefVal.h2R
  rw [e8, e10, e12, e14, h1e, hh1, ea, ha, hpool]

end

end Cert.Meet

end
-- ==== Proof.Finite.lean ====
import proofs.«430244_j76613626626159_3_alg».proof.Pre_finite_inputs
import proofs.«430244_j76613626626159_3_alg».proof.Proof.Gen.Pre_finite_inputs
import Idealize.ShloMosaic.PureOps.Ideal
import Idealize.ShloMosaic.Lib.ReduceAll
import Idealize.ShloMosaic.Lib.ValueIdx
import Mathlib.Data.EReal.Basic

noncomputable section

namespace Cert.Finite

open Idealize.ShloMosaic Idealize.ShloMosaic.ValueIdx

instance : Subsingleton (⟨0, ![]⟩ : Shape).Idx := ⟨fun _ _ => funext fun d => d.elim0⟩

theorem ofBits_inf : Ideal.ofBits .f32 0x7F800000#32 = ⊤ := by simp [Ideal.ofBits, Ideal.ieee]

theorem coe_toReal_of_abs_lt_top (x : EReal) (h : max x (-x) < ⊤) : ((x.toReal : ℝ) : EReal) = x := by
  have h1 : x ≠ ⊤ := by rintro rfl; simp at h
  have h2 : x ≠ ⊥ := by rintro rfl; simp at h
  exact EReal.coe_toReal h1 h2

theorem ofBool_eq_one {b : Bool} : BitVec.ofBool b = 1#1 ↔ b = true := by cases b <;> decide

theorem elt_finite (x : EReal)
    (h : Ideal.cmp .olt (max x (-x)) (Ideal.ofBits .f32 0x7F800000#32) = 1#1) : ((x.toReal : ℝ) : EReal) = x := by
  rw [ofBits_inf] at h
  have hd : decide (max x (-x) < ⊤) = true := ofBool_eq_one.1 h
  exact coe_toReal_of_abs_lt_top x (of_decide_eq_true hd)

theorem finite_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) :
    ∃ xr : s.Idx → ℝ, x = fun i => ((xr i : ℝ) : EReal) := by
  refine ⟨fun i => (x i).toReal, funext fun i => (elt_finite (x i) ?_).symm⟩
  exact Host.reduce_andi_all _ _ hr hu ix0 h i

open Cert.Pre_finite_inputs in

theorem finite_x_W [hP : Cert.Pre_finite_inputs.Facts]
    {x0 : FVec Ideal S100000x128 .f32} {x1 : IVec S2x1600000 32} {x2 : IVec S100000 32}
    {x3 : FVec Ideal S128x64 .f32} {x4 : FVec Ideal S64 .f32} {x5 : FVec Ideal S64x64 .f32}
    {x6 : FVec Ideal S64 .f32} {x7 : FVec Ideal S64x64 .f32} {x8 : FVec Ideal S64 .f32}
    {x9 : FVec Ideal S64x64 .f32} {x10 : FVec Ideal S64 .f32} {x11 : FVec Ideal S64x64 .f32}
    {x12 : FVec Ideal S64 .f32} {x13 : FVec Ideal S64x5 .f32} {x14 : FVec Ideal S5 .f32}
    (h : Cert.Pre_finite_inputs.fn (F := Ideal) x0 x1 x2 x3 x4 x5 x6 x7 x8 x9 x10 x11 x12 x13 x14 = fun _ => 1#1) :
    (∃ xr : (⟨2, ![100000, 128]⟩ : Shape).Idx → ℝ, x0 = fun i => ((xr i : ℝ) : EReal))
      ∧ (∃ wr : (⟨2, ![128, 64]⟩ : Shape).Idx → ℝ, x3 = fun i => ((wr i : ℝ) : EReal)) := by

  have h0 := congrFun h ix0
  dsimp only [fn, fn_part1, fn_part2, fn_part3, Idealize.ShloMosaic.andi] at h0

  have p11 := (IntOp.andi_eq_one.1 h0).1
  have p10 := (IntOp.andi_eq_one.1 p11).1
  have p9 := (IntOp.andi_eq_one.1 p10).1
  have p8 := (IntOp.andi_eq_one.1 p9).1
  have p7 := (IntOp.andi_eq_one.1 p8).1
  have p6 := (IntOp.andi_eq_one.1 p7).1
  have p5 := (IntOp.andi_eq_one.1 p6).1
  have p4 := (IntOp.andi_eq_one.1 p5).1
  have p3 := (IntOp.andi_eq_one.1 p4).1
  have p2 := (IntOp.andi_eq_one.1 p3).1
  have p1 := (IntOp.andi_eq_one.1 p2).1

  obtain ⟨hx, hw⟩ := IntOp.andi_eq_one.1 p1
  exact ⟨finite_of_all _ _ _ x0 hx, finite_of_all _ _ _ x3 hw⟩

end Cert.Finite

end
-- ==== Proof.Claims.lean ====
import proofs.«430244_j76613626626159_3_alg».proof.Defs
import proofs.«430244_j76613626626159_3_alg».proof.Proof.Frames
import proofs.«430244_j76613626626159_3_alg».proof.Proof.KVal
import proofs.«430244_j76613626626159_3_alg».proof.Proof.RefVal2
import proofs.«430244_j76613626626159_3_alg».proof.Proof.Meet
import proofs.«430244_j76613626626159_3_alg».proof.Proof.Finite
import proofs.«430244_j76613626626159_3_alg».proof.Proof.Gen.Kernel
import proofs.«430244_j76613626626159_3_alg».proof.Proof.Gen.Pre_finite_inputs
import Idealize.ShloMosaic.Lib.Tactic

noncomputable section

namespace Cert.Proof.Claims

open Idealize.ShloMosaic Idealize.ShloMosaic.TcCoe Idealize.ShloMosaic.Tactic Idealize.SL.Sem

-- The two printed kernel programs are one text, generic in the instance: one frame serves both.
theorem frame_p : Cert.frame_Kernel := fun m ρ _ =>
  Eq.mp (by sl_kernel_rfl) (Cert.KernelIdeal.Gen.frame m ρ)
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both results are one function of the arguments once the node features and the first weight are finite.
theorem algebraic : Cert.algebraic_KernelIdeal_ReferenceIdeal := by
  intro m ρ m' ρ' hpre hagree
  refine ⟨fun c => Cert.KernelIdeal.Gen.W12 m c (Proc.devRef .tc Cert.KernelIdeal.main_v36), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  obtain ⟨hx, hW⟩ := Cert.Finite.finite_x_W (hpre c)
  rw [Cert.ReferenceIdeal.Read.val_main_v57_eq m' c, Cert.ReferenceIdeal.RefVal.ref_val,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.Meet.out_meet _ _ _ _ _ _ _ _ _ _ _ _ _ _ _ hx hW).symm.trans (Cert.KernelIdeal.Gen.kernel_val m c).symm

end Cert.Proof.Claims

end
-- ==== Proof.lean ====
import proofs.«430244_j76613626626159_3_alg».proof.Defs
import proofs.«430244_j76613626626159_3_alg».proof.Proof.Gen.Kernel
import proofs.«430244_j76613626626159_3_alg».proof.Proof.Gen.KernelIdeal
import proofs.«430244_j76613626626159_3_alg».proof.Proof.Gen.ReferenceIdeal
import proofs.«430244_j76613626626159_3_alg».proof.Proof.Gen.Pre_finite_inputs
import proofs.«430244_j76613626626159_3_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
